-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x800000 : Shape := ⟨2, ![2, 800000]⟩
abbrev S50000x64 : Shape := ⟨2, ![50000, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S2x800000 : S_.BroadcastsInDim S2x800000 (![] : Fin 0 → Fin S2x800000.rank)
  reducesTo_S2x800000_S_d0_1 : S2x800000.ReducesTo [0, 1] S_

variable [Facts]

def fn {F : FTy → Type} [FloatOps F] (main_arg0 : IVec S2x800000 32) (main_arg1 : FVec F S50000x64 .f32) : IVec S_ 1 :=
  let main_v0 : FVec F S50000x64 .f32 := Host.absf main_arg1
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_c_0 : IVec S_ 32 := constantI S_ 32 0#32
  let main_v4 : IVec S2x800000 32 := broadcastInDim S2x800000 ![] bcast_S_S2x800000 main_c_0
  let main_v5 : IVec S2x800000 1 := cmpi .sge main_arg0 main_v4
  let main_c_1 : IVec S_ 32 := constantI S_ 32 50000#32
  let main_v6 : IVec S2x800000 32 := broadcastInDim S2x800000 ![] bcast_S_S2x800000 main_c_1
  let main_v7 : IVec S2x800000 1 := cmpi .slt main_arg0 main_v6
  let main_v8 : IVec S2x800000 1 := andi main_v5 main_v7
  let main_c_2 : IVec S_ 1 := constantI S_ 1 1#1
  let main_v9 : IVec S_ 1 := (fun x v => Host.reduce IntOp.andi x v reducesTo_S2x800000_S_d0_1 h_S_) main_v8 main_c_2
  let main_v10 : IVec S_ 1 := andi main_v3 main_v9
  main_v10
-- ==== Kernel.lean ====
abbrev S2x800000 : Shape := ⟨2, ![2, 800000]⟩
abbrev S50000x64 : Shape := ⟨2, ![50000, 64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S51200x64 : Shape := ⟨2, ![51200, 64]⟩
abbrev S1280x1 : Shape := ⟨2, ![1280, 1]⟩
abbrev S1280 : Shape := ⟨1, ![1280]⟩
abbrev S1280x64 : Shape := ⟨2, ![1280, 64]⟩
abbrev S1x2048 : Shape := ⟨2, ![1, 2048]⟩
abbrev S1280x2048 : Shape := ⟨2, ![1280, 2048]⟩
abbrev S2048x64 : Shape := ⟨2, ![2048, 64]⟩

abbrev nBuf : Space → Nat
  | .hbm => 62
  | .vmem => 27
  | .smem => 0
  | _ => 0

abbrev bufTy : (tb : Table) → Fin (tcTables nBuf tb) → BufTy
  | .hbm, ⟨0, _⟩ => ⟨S2x800000, .i32⟩
  | .hbm, ⟨1, _⟩ => ⟨S50000x64, .f32⟩
  | .hbm, ⟨2, _⟩ => ⟨S1x800000, .i32⟩
  | .hbm, ⟨3, _⟩ => ⟨S800000, .i32⟩
  | .hbm, ⟨4, _⟩ => ⟨S1x800000, .i32⟩
  | .hbm, ⟨5, _⟩ => ⟨S800000, .i32⟩
  | .hbm, ⟨6, _⟩ => ⟨S_, .f32⟩
  | .hbm, ⟨7, _⟩ => ⟨S800000, .f32⟩
  | .hbm, ⟨8, _⟩ => ⟨S_, .f32⟩
  | .hbm, ⟨9, _⟩ => ⟨S50000, .f32⟩
  | .hbm, ⟨10, _⟩ => ⟨S800000x1, .i32⟩
  | .hbm, ⟨11, _⟩ => ⟨S50000, .f32⟩
  | .hbm, ⟨12, _⟩ => ⟨S_, .f32⟩
  | .hbm, ⟨13, _⟩ => ⟨S50000, .f32⟩
  | .hbm, ⟨14, _⟩ => ⟨S50000, .i1⟩
  | .hbm, ⟨15, _⟩ => ⟨S_, .f32⟩
  | .hbm, ⟨16, _⟩ => ⟨S50000, .f32⟩
  | .hbm, ⟨17, _⟩ => ⟨S50000, .i1⟩
  | .hbm, ⟨18, _⟩ => ⟨S_, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000, .f32⟩
  | .hbm, ⟨45, _⟩ => ⟨S800000, .f32⟩
  | .hbm, ⟨46, _⟩ => ⟨S800000x1, .i32⟩
  | .hbm, ⟨47, _⟩ => ⟨S800000x1, .i32⟩
  | .hbm, ⟨48, _⟩ => ⟨S800000x1, .f32⟩
  | .hbm, ⟨49, _⟩ => ⟨S_, .i32⟩
  | .hbm, ⟨50, _⟩ => ⟨S_, .f32⟩
  | .hbm, ⟨51, _⟩ => ⟨S51200x64, .f32⟩
  | .hbm, ⟨52, _⟩ => ⟨S51200x64, .f32⟩
  | .hbm, ⟨53, _⟩ => ⟨S51200x64, .f32⟩
  | .hbm, ⟨54, _⟩ => ⟨S51200x64, .f32⟩
  | .hbm, ⟨55, _⟩ => ⟨S51200x64, .f32⟩
  | .hbm, ⟨56, _⟩ => ⟨S51200x64, .f32⟩
  | .hbm, ⟨57, _⟩ => ⟨S51200x64, .f32⟩
  | .hbm, ⟨58, _⟩ => ⟨S50000x64, .f32⟩
  | .hbm, ⟨59, _⟩ => ⟨S_, .f32⟩
  | .hbm, ⟨60, _⟩ => ⟨S50000x64, .f32⟩
  | .hbm, ⟨61, _⟩ => ⟨S50000x64, .f32⟩
  | .local _ .vmem, ⟨0, _⟩ => ⟨S1280x1, .i32⟩
  | .local _ .vmem, ⟨1, _⟩ => ⟨S1280x1, .i32⟩
  | .local _ .vmem, ⟨2, _⟩ => ⟨S1280x1, .i32⟩
  | .local _ .vmem, ⟨3, _⟩ => ⟨S1280x1, .i32⟩
  | .local _ .vmem, ⟨4, _⟩ => ⟨S1280x1, .f32⟩
  | .local _ .vmem, ⟨5, _⟩ => ⟨S1280x1, .f32⟩
  | .local _ .vmem, ⟨6, _⟩ => ⟨S51200x64, .f32⟩
  | .local _ .vmem, ⟨7, _⟩ => ⟨S51200x64, .f32⟩
  | .local _ .vmem, ⟨8, _⟩ => ⟨S51200x64, .f32⟩
  | .local _ .vmem, ⟨9, _⟩ => ⟨S1280x1, .i32⟩
  | .local _ .vmem, ⟨10, _⟩ => ⟨S1280x1, .i32⟩
  | .local _ .vmem, ⟨11, _⟩ => ⟨S1280x1, .i32⟩
  | .local _ .vmem, ⟨12, _⟩ => ⟨S1280x1, .i32⟩
  | .local _ .vmem, ⟨13, _⟩ => ⟨S1280x1, .f32⟩
  | .local _ .vmem, ⟨14, _⟩ => ⟨S1280x1, .f32⟩
  | .local _ .vmem, ⟨15, _⟩ => ⟨S51200x64, .f32⟩
  | .local _ .vmem, ⟨16, _⟩ => ⟨S51200x64, .f32⟩
  | .local _ .vmem, ⟨17, _⟩ => ⟨S51200x64, .f32⟩
  | .local _ .vmem, ⟨18, _⟩ => ⟨S1280x1, .i32⟩
  | .local _ .vmem, ⟨19, _⟩ => ⟨S1280x1, .i32⟩
  | .local _ .vmem, ⟨20, _⟩ => ⟨S1280x1, .i32⟩
  | .local _ .vmem, ⟨21, _⟩ => ⟨S1280x1, .i32⟩
  | .local _ .vmem, ⟨22, _⟩ => ⟨S1280x1, .f32⟩
  | .local _ .vmem, ⟨23, _⟩ => ⟨S1280x1, .f32⟩
  | .local _ .vmem, ⟨24, _⟩ => ⟨S51200x64, .f32⟩
  | .local _ .vmem, ⟨25, _⟩ => ⟨S51200x64, .f32⟩
  | .local _ .vmem, ⟨26, _⟩ => ⟨S51200x64, .f32⟩
  | _, _ => ⟨S2x800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_call0_v0 : Ref sig .tc := ⟨.hbm, 19, rfl⟩
abbrev main_call0_v1 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_call1_v0 : Ref sig .tc := ⟨.hbm, 24, rfl⟩
abbrev main_call1_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_6 : Ref sig .tc := ⟨.hbm, 36, rfl⟩
abbrev main_v22 : Ref sig .tc := ⟨.hbm, 37, rfl⟩
abbrev main_v23 : Ref sig .tc := ⟨.hbm, 38, rfl⟩
abbrev main_c_7 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_8 : Ref sig .tc := ⟨.hbm, 49, rfl⟩
abbrev main_call2_v0 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23

abbrev nD : Nat := 1
abbrev τ : Topo := Topo.v7x

variable {F : FTy → Type} [FloatOps F]

abbrev grid0 : Pipeline.Grid := ⟨1, ![625], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1280x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1280x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1280x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S51200x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S51200x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![625], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1280x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1280x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1280x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S51200x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S51200x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![625], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1280x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1280x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1280x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S51200x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S51200x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S800000_S800000x1 : S800000.ShapeCasts S800000x1
  pads_S50000x64_S51200x64_012000_000 : S50000x64.Pads (![0, 0] : Fin 2 → Nat) ![1200, 0] ![0, 0] S51200x64
  h_S_ : 0 < S_.numel
  inb_S51200x64_S51200x64_0_0 : ∀ a, (![0, 0] : Fin 2 → Nat) a + S51200x64.size a ≤ S51200x64.size a
  h_S51200x64 : 0 < S51200x64.numel
  shapeCasts_S51200x64_S51200x64 : S51200x64.ShapeCasts S51200x64
  inb_S1280x1_S1280x1_0_0 : ∀ a, (![0, 0] : Fin 2 → Nat) a + S1280x1.size a ≤ S1280x1.size a
  h_S1280x1 : 0 < S1280x1.numel
  shapeCasts_S1280x1_S1280 : S1280x1.ShapeCasts S1280
  iota_S1x2048_d1_w32 : S1x2048.Iotas .tc 32 [1]
  shapeCasts_S1280_S1280x1 : S1280.ShapeCasts S1280x1
  broadcasts_S1280x1_S1280x2048 : S1280x1.Broadcasts S1280x2048
  broadcasts_S1x2048_S1280x2048 : S1x2048.Broadcasts S1280x2048
  natLt_1_32 : 1 < 32
  bitsLt_bf16_f32 : FTy.bits .bf16 < FTy.bits .f32
  inb_S51200x64_S2048x64_0_0 : ∀ a, (![0, 0] : Fin 2 → Nat) a + S2048x64.size a ≤ S51200x64.size a
  h_S2048x64 : 0 < S2048x64.numel
  shapeCasts_S2048x64_S2048x64 : S2048x64.ShapeCasts S2048x64
  inb_S51200x64_S2048x64_2048_0 : ∀ a, (![2048, 0] : Fin 2 → Nat) a + S2048x64.size a ≤ S51200x64.size a
  inb_S51200x64_S2048x64_4096_0 : ∀ a, (![4096, 0] : Fin 2 → Nat) a + S2048x64.size a ≤ S51200x64.size a
  inb_S51200x64_S2048x64_6144_0 : ∀ a, (![6144, 0] : Fin 2 → Nat) a + S2048x64.size a ≤ S51200x64.size a
  inb_S51200x64_S2048x64_8192_0 : ∀ a, (![8192, 0] : Fin 2 → Nat) a + S2048x64.size a ≤ S51200x64.size a
  inb_S51200x64_S2048x64_10240_0 : ∀ a, (![10240, 0] : Fin 2 → Nat) a + S2048x64.size a ≤ S51200x64.size a
  inb_S51200x64_S2048x64_12288_0 : ∀ a, (![12288, 0] : Fin 2 → Nat) a + S2048x64.size a ≤ S51200x64.size a
  inb_S51200x64_S2048x64_14336_0 : ∀ a, (![14336, 0] : Fin 2 → Nat) a + S2048x64.size a ≤ S51200x64.size a
  inb_S51200x64_S2048x64_16384_0 : ∀ a, (![16384, 0] : Fin 2 → Nat) a + S2048x64.size a ≤ S51200x64.size a
  inb_S51200x64_S2048x64_18432_0 : ∀ a, (![18432, 0] : Fin 2 → Nat) a + S2048x64.size a ≤ S51200x64.size a
  inb_S51200x64_S2048x64_20480_0 : ∀ a, (![20480, 0] : Fin 2 → Nat) a + S2048x64.size a ≤ S51200x64.size a
  inb_S51200x64_S2048x64_22528_0 : ∀ a, (![22528, 0] : Fin 2 → Nat) a + S2048x64.size a ≤ S51200x64.size a
  inb_S51200x64_S2048x64_24576_0 : ∀ a, (![24576, 0] : Fin 2 → Nat) a + S2048x64.size a ≤ S51200x64.size a
  inb_S51200x64_S2048x64_26624_0 : ∀ a, (![26624, 0] : Fin 2 → Nat) a + S2048x64.size a ≤ S51200x64.size a
  inb_S51200x64_S2048x64_28672_0 : ∀ a, (![28672, 0] : Fin 2 → Nat) a + S2048x64.size a ≤ S51200x64.size a
  inb_S51200x64_S2048x64_30720_0 : ∀ a, (![30720, 0] : Fin 2 → Nat) a + S2048x64.size a ≤ S51200x64.size a
  inb_S51200x64_S2048x64_32768_0 : ∀ a, (![32768, 0] : Fin 2 → Nat) a + S2048x64.size a ≤ S51200x64.size a
  inb_S51200x64_S2048x64_34816_0 : ∀ a, (![34816, 0] : Fin 2 → Nat) a + S2048x64.size a ≤ S51200x64.size a
  inb_S51200x64_S2048x64_36864_0 : ∀ a, (![36864, 0] : Fin 2 → Nat) a + S2048x64.size a ≤ S51200x64.size a
  inb_S51200x64_S2048x64_38912_0 : ∀ a, (![38912, 0] : Fin 2 → Nat) a + S2048x64.size a ≤ S51200x64.size a
  inb_S51200x64_S2048x64_40960_0 : ∀ a, (![40960, 0] : Fin 2 → Nat) a + S2048x64.size a ≤ S51200x64.size a
  inb_S51200x64_S2048x64_43008_0 : ∀ a, (![43008, 0] : Fin 2 → Nat) a + S2048x64.size a ≤ S51200x64.size a
  inb_S51200x64_S2048x64_45056_0 : ∀ a, (![45056, 0] : Fin 2 → Nat) a + S2048x64.size a ≤ S51200x64.size a
  inb_S51200x64_S2048x64_47104_0 : ∀ a, (![47104, 0] : Fin 2 → Nat) a + S2048x64.size a ≤ S51200x64.size a
  inb_S51200x64_S2048x64_49152_0 : ∀ a, (![49152, 0] : Fin 2 → Nat) a + S2048x64.size a ≤ S51200x64.size a
  broadcasts_S1280x1_S1280x64 : S1280x1.Broadcasts S1280x64
  slices_S51200x64_S50000x64_0_0 : S51200x64.Slices ![0, 0] S50000x64
  bcast_S_S50000x64 : S_.BroadcastsInDim S50000x64 (![] : Fin 0 → Fin S50000x64.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S1280x2048_S2048x64_S1280x64_1_0_0_1_n_n_wf : DotDims.WF S1280x2048 S2048x64 S1280x64 [1] [0] [0] [1] [] []
  dot_S1280x2048_S1280x64_S2048x64_0_0_1_1_n_n_wf : DotDims.WF S1280x2048 S1280x64 S2048x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1280x1.size a ≤ S800000x1.size a
  hwx0_0 : ∀ i : grid0.Coords, EltTy.bits .i32 = 32 ∨ (Rect.block (s := S800000x1) S1280x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x1.size a ≤ S800000x1.size a
  hwx0_1 : ∀ i : grid0.Coords, EltTy.bits .i32 = 32 ∨ (Rect.block (s := S800000x1) S1280x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1280x1.size a ≤ S800000x1.size a
  hwx0_2 : ∀ i : grid0.Coords, EltTy.bits .f32 = 32 ∨ (Rect.block (s := S800000x1) S1280x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S51200x64.size a ≤ S51200x64.size a
  hwx0_3 : ∀ i : grid0.Coords, EltTy.bits .f32 = 32 ∨ (Rect.block (s := S51200x64) S51200x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S51200x64.size a ≤ S51200x64.size a
  hwx0_4 : ∀ i : grid0.Coords, EltTy.bits .f32 = 32 ∨ (Rect.block (s := S51200x64) S51200x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1280x1.size a ≤ S800000x1.size a
  hwx1_0 : ∀ i : grid1.Coords, EltTy.bits .i32 = 32 ∨ (Rect.block (s := S800000x1) S1280x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1280x1.size a ≤ S800000x1.size a
  hwx1_1 : ∀ i : grid1.Coords, EltTy.bits .i32 = 32 ∨ (Rect.block (s := S800000x1) S1280x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1280x1.size a ≤ S800000x1.size a
  hwx1_2 : ∀ i : grid1.Coords, EltTy.bits .f32 = 32 ∨ (Rect.block (s := S800000x1) S1280x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S51200x64.size a ≤ S51200x64.size a
  hwx1_3 : ∀ i : grid1.Coords, EltTy.bits .f32 = 32 ∨ (Rect.block (s := S51200x64) S51200x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S51200x64.size a ≤ S51200x64.size a
  hwx1_4 : ∀ i : grid1.Coords, EltTy.bits .f32 = 32 ∨ (Rect.block (s := S51200x64) S51200x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1280x1.size a ≤ S800000x1.size a
  hwx2_0 : ∀ i : grid2.Coords, EltTy.bits .i32 = 32 ∨ (Rect.block (s := S800000x1) S1280x1.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1280x1.size a ≤ S800000x1.size a
  hwx2_1 : ∀ i : grid2.Coords, EltTy.bits .i32 = 32 ∨ (Rect.block (s := S800000x1) S1280x1.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1280x1.size a ≤ S800000x1.size a
  hwx2_2 : ∀ i : grid2.Coords, EltTy.bits .f32 = 32 ∨ (Rect.block (s := S800000x1) S1280x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S51200x64.size a ≤ S51200x64.size a
  hwx2_3 : ∀ i : grid2.Coords, EltTy.bits .f32 = 32 ∨ (Rect.block (s := S51200x64) S51200x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S51200x64.size a ≤ S51200x64.size a
  hwx2_4 : ∀ i : grid2.Coords, EltTy.bits .f32 = 32 ∨ (Rect.block (s := S51200x64) S51200x64.size (cc2_transform_4 i) (hinb2_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S1280x2048_S2048x64_S1280x64_1_0_0_1_n_n : DotDims S1280x2048 S2048x64 S1280x64 where
  lhsContracting := [1]
  rhsContracting := [0]
  lhsNonContracting := [0]
  rhsNonContracting := [1]
  lhsBatch := []
  rhsBatch := []
  wf := dot_S1280x2048_S2048x64_S1280x64_1_0_0_1_n_n_wf
def dot_S1280x2048_S1280x64_S2048x64_0_0_1_1_n_n : DotDims S1280x2048 S1280x64 S2048x64 where
  lhsContracting := [0]
  rhsContracting := [0]
  lhsNonContracting := [1]
  rhsNonContracting := [1]
  lhsBatch := []
  rhsBatch := []
  wf := dot_S1280x2048_S1280x64_S2048x64_0_0_1_1_n_n_wf

abbrev win0_0 : Pipeline.Window sig grid0 :=
  Pipeline.Window.ofSpec (Memref.whole main_v30) S1280x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S1280x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1280x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33) S51200x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S51200x64.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v30) S1280x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1280x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1280x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S51200x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S51200x64.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v30) S1280x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S1280x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S1280x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v35) S51200x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36) S51200x64.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S2x800000 : Shape := ⟨2, ![2, 800000]⟩
abbrev S50000x64 : Shape := ⟨2, ![50000, 64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩

abbrev nBuf : Space → Nat
  | .hbm => 100
  | .vmem => 0
  | .smem => 0
  | _ => 0

abbrev bufTy : (tb : Table) → Fin (tcTables nBuf tb) → BufTy
  | .hbm, ⟨0, _⟩ => ⟨S2x800000, .i32⟩
  | .hbm, ⟨1, _⟩ => ⟨S50000x64, .f32⟩
  | .hbm, ⟨2, _⟩ => ⟨S1x800000, .i32⟩
  | .hbm, ⟨3, _⟩ => ⟨S800000, .i32⟩
  | .hbm, ⟨4, _⟩ => ⟨S1x800000, .i32⟩
  | .hbm, ⟨5, _⟩ => ⟨S800000, .i32⟩
  | .hbm, ⟨6, _⟩ => ⟨S_, .f32⟩
  | .hbm, ⟨7, _⟩ => ⟨S800000, .f32⟩
  | .hbm, ⟨8, _⟩ => ⟨S_, .f32⟩
  | .hbm, ⟨9, _⟩ => ⟨S50000, .f32⟩
  | .hbm, ⟨10, _⟩ => ⟨S800000x1, .i32⟩
  | .hbm, ⟨11, _⟩ => ⟨S50000, .f32⟩
  | .hbm, ⟨12, _⟩ => ⟨S_, .f32⟩
  | .hbm, ⟨13, _⟩ => ⟨S50000, .f32⟩
  | .hbm, ⟨14, _⟩ => ⟨S50000, .i1⟩
  | .hbm, ⟨15, _⟩ => ⟨S_, .f32⟩
  | .hbm, ⟨16, _⟩ => ⟨S50000, .f32⟩
  | .hbm, ⟨17, _⟩ => ⟨S50000, .i1⟩
  | .hbm, ⟨18, _⟩ => ⟨S_, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000, .f32⟩
  | .hbm, ⟨45, _⟩ => ⟨S800000, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x64, .f32⟩
  | .hbm, ⟨55, _⟩ => ⟨S800000x1, .f32⟩
  | .hbm, ⟨56, _⟩ => ⟨S800000x64, .f32⟩
  | .hbm, ⟨57, _⟩ => ⟨S800000x64, .f32⟩
  | .hbm, ⟨58, _⟩ => ⟨S_, .f32⟩
  | .hbm, ⟨59, _⟩ => ⟨S50000x64, .f32⟩
  | .hbm, ⟨60, _⟩ => ⟨S800000x1, .i32⟩
  | .hbm, ⟨61, _⟩ => ⟨S50000x64, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x64, .f32⟩
  | .hbm, ⟨71, _⟩ => ⟨S800000x1, .f32⟩
  | .hbm, ⟨72, _⟩ => ⟨S800000x64, .f32⟩
  | .hbm, ⟨73, _⟩ => ⟨S800000x64, .f32⟩
  | .hbm, ⟨74, _⟩ => ⟨S_, .f32⟩
  | .hbm, ⟨75, _⟩ => ⟨S50000x64, .f32⟩
  | .hbm, ⟨76, _⟩ => ⟨S800000x1, .i32⟩
  | .hbm, ⟨77, _⟩ => ⟨S50000x64, .f32⟩
  | .hbm, ⟨78, _⟩ => ⟨S_, .i32⟩
  | .hbm, ⟨79, _⟩ => ⟨S800000, .i32⟩
  | .hbm, ⟨80, _⟩ => ⟨S800000, .i1⟩
  | .hbm, ⟨81, _⟩ => ⟨S_, .i32⟩
  | .hbm, ⟨82, _⟩ => ⟨S800000, .i32⟩
  | .hbm, ⟨83, _⟩ => ⟨S800000, .i32⟩
  | .hbm, ⟨84, _⟩ => ⟨S800000, .i32⟩
  | .hbm, ⟨85, _⟩ => ⟨S800000x1, .i32⟩
  | .hbm, ⟨86, _⟩ => ⟨S800000x64, .f32⟩
  | .hbm, ⟨87, _⟩ => ⟨S800000x1, .f32⟩
  | .hbm, ⟨88, _⟩ => ⟨S800000x64, .f32⟩
  | .hbm, ⟨89, _⟩ => ⟨S800000x64, .f32⟩
  | .hbm, ⟨90, _⟩ => ⟨S_, .f32⟩
  | .hbm, ⟨91, _⟩ => ⟨S50000x64, .f32⟩
  | .hbm, ⟨92, _⟩ => ⟨S800000x1, .i32⟩
  | .hbm, ⟨93, _⟩ => ⟨S50000x64, .f32⟩
  | .hbm, ⟨94, _⟩ => ⟨S50000x64, .f32⟩
  | .hbm, ⟨95, _⟩ => ⟨S50000x64, .f32⟩
  | .hbm, ⟨96, _⟩ => ⟨S50000x64, .f32⟩
  | .hbm, ⟨97, _⟩ => ⟨S_, .f32⟩
  | .hbm, ⟨98, _⟩ => ⟨S50000x64, .f32⟩
  | .hbm, ⟨99, _⟩ => ⟨S50000x64, .f32⟩
  | _, _ => ⟨S2x800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_call0_v0 : Ref sig .tc := ⟨.hbm, 19, rfl⟩
abbrev main_call0_v1 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_call1_v0 : Ref sig .tc := ⟨.hbm, 24, rfl⟩
abbrev main_call1_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_6 : Ref sig .tc := ⟨.hbm, 36, rfl⟩
abbrev main_v22 : Ref sig .tc := ⟨.hbm, 37, rfl⟩
abbrev main_v23 : Ref sig .tc := ⟨.hbm, 38, rfl⟩
abbrev main_c_7 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_8 : Ref sig .tc := ⟨.hbm, 46, rfl⟩
abbrev main_v30 : Ref sig .tc := ⟨.hbm, 47, rfl⟩
abbrev main_v31 : Ref sig .tc := ⟨.hbm, 48, rfl⟩
abbrev main_c_9 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_10 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_11 : Ref sig .tc := ⟨.hbm, 62, rfl⟩
abbrev main_v43 : Ref sig .tc := ⟨.hbm, 63, rfl⟩
abbrev main_v44 : Ref sig .tc := ⟨.hbm, 64, rfl⟩
abbrev main_c_12 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_13 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_14 : Ref sig .tc := ⟨.hbm, 78, rfl⟩
abbrev main_v56 : Ref sig .tc := ⟨.hbm, 79, rfl⟩
abbrev main_v57 : Ref sig .tc := ⟨.hbm, 80, rfl⟩
abbrev main_c_15 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_16 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_17 : Ref sig .tc := ⟨.hbm, 97, rfl⟩
abbrev main_v72 : Ref sig .tc := ⟨.hbm, 98, rfl⟩
abbrev main_v73 : Ref sig .tc := ⟨.hbm, 99, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KernelR0Runs.lean ====
/-
  Region 0 of the program (the 0-th propagation round): what its two control cases share. The body's one
  conditional asks whether the grid point is the first (there the accumulator is zeroed before anything is added);
  decided over the 625 points. No window is ever idle. The accumulator is the kernel's one scratch buffer.
-/
import proofs.«418351_j72971494359151_1_alg».proof.Proof.Gen.Kernel.Launch
import proofs.«418351_j72971494359151_1_alg».proof.Proof.Gen.Kernel.Skeleton
import proofs.«418351_j72971494359151_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's conditional: the grid point is the first one. -/
abbrev cond0 (i : grid0.Coords) : Prop := (Scalar.cmpi .ne (Scalar.extui (Scalar.cmpi .eq (BitVec.ofNat 32 (i 0).val) 0#32)) 0#32) = 1#1
/-- It holds exactly at point 0. -/
theorem hcond0 : ∀ t : Fin cfg0.N, cond0 (grid0.coords t) ↔ t.val = 0 :=
  (by decide +kernel : ∀ t : Fin grid0.N, cond0 (grid0.coords t) ↔ t.val = 0)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel

/-- Each window's current staging memref at point `t`, and its wholeness. -/
abbrev ms0_0 (t : Fin cfg0.N) : Memref sig .tc .vmem S1280x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1280x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1280x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S51200x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S51200x64 .f32 := win0_4.stage (cfg0.slots t 4)
abbrev hs0_4 (t : Fin cfg0.N) : (ms0_4 t).IsWhole := hstage0_4 ((cfg0.slots t 4).cast nbuf0_4)
/-- The accumulator: the kernel's scratch buffer, whole. -/
abbrev scM0 : Memref sig .tc .vmem S51200x64 .f32 := Memref.whole cc0_scratch0
abbrev VS0 : View sig .tc .vmem S51200x64 .f32 := scM0.view
/-- One staging buffer of the output window, through which its contents are stated. -/
abbrev VO0 : View sig .tc .vmem S51200x64 .f32 := (Memref.whole cc0_stg4_0 : Memref sig .tc .vmem S51200x64 .f32).view

/-- The class invariant with the accumulator split off: the accumulator owned at some contents, every other scoped
    buffer that is no staging buffer of this call at some contents, the generator register at some state. -/
theorem PhiA0_eq (c : Dev nD) :
    (Pipeline.ΦA spec0 c : sProp 𝕄)
      = iprop(iprop((∃ d, owns (c : Thread nD τ) scM0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [scM0, owns_whole]
  rfl

end Cert.Kernel.Hand

end
-- ==== Proof.KernelR0RunB.lean ====
/-
  Region 0, a grid point after the first: the body's run. The conditional is not taken; the body loads the three
  edge blocks and the node table, adds to each 2048-row slice of the accumulator what the block's edges send there,
  and copies the accumulator into the output buffer. Found by running the body: the pieces the output buffer and the
  accumulator end with.
-/
import proofs.«418351_j72971494359151_1_alg».proof.Proof.KernelR0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S1280x1 .i32) (harg1 : arg1.IsWhole) (arg2 : Memref sig .tc .vmem S1280x1 .i32) (harg2 : arg2.IsWhole) (arg3 : Memref sig .tc .vmem S1280x1 .f32) (harg3 : arg3.IsWhole) (arg4 : Memref sig .tc .vmem S51200x64 .f32) (harg4 : arg4.IsWhole) (arg5 : Memref sig .tc .vmem S51200x64 .f32) (harg5 : arg5.IsWhole) (arg6 : Memref sig .tc .vmem S51200x64 .f32) (harg6 : arg6.IsWhole) (hc0 : ¬cond0 i)
    (x0 : Vec F S1280x1 .i32) (x1 : Vec F S1280x1 .i32) (x2 : Vec F S1280x1 .f32) (x3 : Vec F S51200x64 .f32) (xs0 : Vec F S51200x64 .f32) :
    Σ' (L4 : List (View.Piece (Elt F) S51200x64 .f32)), { LS0 : List (View.Piece (Elt F) S51200x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc0__prop_kernel i arg1 harg1 arg2 harg2 arg3 harg3 arg4 harg4 arg5 harg5 arg6 harg6) K } := by
  refine ⟨?_, ?_, fun E K => ?run⟩
  case run =>
    simp only [cc0__prop_kernel_eq_skeleton]; unfold cc0__prop_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

end Cert.Kernel.Hand

end
-- ==== Proof.KernelR0RunA.lean ====
/-
  Region 0, the first grid point: the body's run. The conditional is taken: the accumulator, at whatever it held,
  is first zeroed whole; then as at every point the body adds to each 2048-row slice of the accumulator what the
  block's edges send there, and copies the accumulator into the output buffer. Found by running the body: the pieces
  the output buffer and the accumulator end with.
-/
import proofs.«418351_j72971494359151_1_alg».proof.Proof.KernelR0RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S1280x1 .i32) (harg1 : arg1.IsWhole) (arg2 : Memref sig .tc .vmem S1280x1 .i32) (harg2 : arg2.IsWhole) (arg3 : Memref sig .tc .vmem S1280x1 .f32) (harg3 : arg3.IsWhole) (arg4 : Memref sig .tc .vmem S51200x64 .f32) (harg4 : arg4.IsWhole) (arg5 : Memref sig .tc .vmem S51200x64 .f32) (harg5 : arg5.IsWhole) (arg6 : Memref sig .tc .vmem S51200x64 .f32) (harg6 : arg6.IsWhole) (hc0 : cond0 i)
    (x0 : Vec F S1280x1 .i32) (x1 : Vec F S1280x1 .i32) (x2 : Vec F S1280x1 .f32) (x3 : Vec F S51200x64 .f32) :
    Σ' (L4 : List (View.Piece (Elt F) S51200x64 .f32)), { LS0 : List (View.Piece (Elt F) S51200x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc0__prop_kernel i arg1 harg1 arg2 harg2 arg3 harg3 arg4 harg4 arg5 harg5 arg6 harg6) K } := by
  refine ⟨?_, ?_, fun E K => ?run⟩
  case run =>
    simp only [cc0__prop_kernel_eq_skeleton]; unfold cc0__prop_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

end Cert.Kernel.Hand

end
-- ==== Proof.KernelR0Body.lean ====
import proofs.«418351_j72971494359151_1_alg».proof.Proof.KernelR0RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
end

section
variable (VO VS : View sig .tc .vmem S51200x64 .f32) (c : Dev nD) (i : grid0.Coords) (arg1 : Memref sig .tc .vmem S1280x1 .i32) (harg1 : arg1.IsWhole) (arg2 : Memref sig .tc .vmem S1280x1 .i32) (harg2 : arg2.IsWhole) (arg3 : Memref sig .tc .vmem S1280x1 .f32) (harg3 : arg3.IsWhole) (arg4 : Memref sig .tc .vmem S51200x64 .f32) (harg4 : arg4.IsWhole) (arg5 : Memref sig .tc .vmem S51200x64 .f32) (harg5 : arg5.IsWhole) (arg6 : Memref sig .tc .vmem S51200x64 .f32) (harg6 : arg6.IsWhole)

theorem cover0_A (hc0 : cond0 i) (x0 : Vec F S1280x1 .i32) (x1 : Vec F S1280x1 .i32) (x2 : Vec F S1280x1 .f32) (x3 : Vec F S51200x64 .f32) (y : S51200x64.Idx) :
    ∃ pc ∈ (kernelRun0_A c i arg1 harg1 arg2 harg2 arg3 harg3 arg4 harg4 arg5 harg5 arg6 harg6 hc0 x0 x1 x2 x3).1, y ∈ pc.1.set :=
  View.cover_of_tiledL (kernelRun0_A c i arg1 harg1 arg2 harg2 arg3 harg3 arg4 harg4 arg5 harg5 arg6 harg6 hc0 x0 x1 x2 x3).1 S51200x64.size (by sl_kernel_rfl) y
def out0_A (hc0 : cond0 i) (x0 : Vec F S1280x1 .i32) (x1 : Vec F S1280x1 .i32) (x2 : Vec F S1280x1 .f32) (x3 : Vec F S51200x64 .f32) : Vec F S51200x64 .f32 :=
  VO.read (Elt F) (VO.writes (Elt F) VO.junk (kernelRun0_A c i arg1 harg1 arg2 harg2 arg3 harg3 arg4 harg4 arg5 harg5 arg6 harg6 hc0 x0 x1 x2 x3).1)
theorem scover0_A (hc0 : cond0 i) (x0 : Vec F S1280x1 .i32) (x1 : Vec F S1280x1 .i32) (x2 : Vec F S1280x1 .f32) (x3 : Vec F S51200x64 .f32) (y : S51200x64.Idx) :
    ∃ pc ∈ (kernelRun0_A c i arg1 harg1 arg2 harg2 arg3 harg3 arg4 harg4 arg5 harg5 arg6 harg6 hc0 x0 x1 x2 x3).2.1, y ∈ pc.1.set :=
  View.cover_of_tiledL (kernelRun0_A c i arg1 harg1 arg2 harg2 arg3 harg3 arg4 harg4 arg5 harg5 arg6 harg6 hc0 x0 x1 x2 x3).2.1 S51200x64.size (by sl_kernel_rfl) y
def sout0_A (hc0 : cond0 i) (x0 : Vec F S1280x1 .i32) (x1 : Vec F S1280x1 .i32) (x2 : Vec F S1280x1 .f32) (x3 : Vec F S51200x64 .f32) : Vec F S51200x64 .f32 :=
  VS.read (Elt F) (VS.writes (Elt F) VS.junk (kernelRun0_A c i arg1 harg1 arg2 harg2 arg3 harg3 arg4 harg4 arg5 harg5 arg6 harg6 hc0 x0 x1 x2 x3).2.1)

theorem cover0_B (hc0 : ¬cond0 i) (x0 : Vec F S1280x1 .i32) (x1 : Vec F S1280x1 .i32) (x2 : Vec F S1280x1 .f32) (x3 : Vec F S51200x64 .f32) (xs0 : Vec F S51200x64 .f32) (y : S51200x64.Idx) :
    ∃ pc ∈ (kernelRun0_B c i arg1 harg1 arg2 harg2 arg3 harg3 arg4 harg4 arg5 harg5 arg6 harg6 hc0 x0 x1 x2 x3 xs0).1, y ∈ pc.1.set :=
  View.cover_of_tiledL (kernelRun0_B c i arg1 harg1 arg2 harg2 arg3 harg3 arg4 harg4 arg5 harg5 arg6 harg6 hc0 x0 x1 x2 x3 xs0).1 S51200x64.size (by sl_kernel_rfl) y
def out0_B (hc0 : ¬cond0 i) (x0 : Vec F S1280x1 .i32) (x1 : Vec F S1280x1 .i32) (x2 : Vec F S1280x1 .f32) (x3 : Vec F S51200x64 .f32) (xs0 : Vec F S51200x64 .f32) : Vec F S51200x64 .f32 :=
  VO.read (Elt F) (VO.writes (Elt F) VO.junk (kernelRun0_B c i arg1 harg1 arg2 harg2 arg3 harg3 arg4 harg4 arg5 harg5 arg6 harg6 hc0 x0 x1 x2 x3 xs0).1)
theorem scover0_B (hc0 : ¬cond0 i) (x0 : Vec F S1280x1 .i32) (x1 : Vec F S1280x1 .i32) (x2 : Vec F S1280x1 .f32) (x3 : Vec F S51200x64 .f32) (xs0 : Vec F S51200x64 .f32) (y : S51200x64.Idx) :
    ∃ pc ∈ (kernelRun0_B c i arg1 harg1 arg2 harg2 arg3 harg3 arg4 harg4 arg5 harg5 arg6 harg6 hc0 x0 x1 x2 x3 xs0).2.1, y ∈ pc.1.set :=
  View.cover_of_tiledL (kernelRun0_B c i arg1 harg1 arg2 harg2 arg3 harg3 arg4 harg4 arg5 harg5 arg6 harg6 hc0 x0 x1 x2 x3 xs0).2.1 S2048x64.size (by sl_kernel_rfl) y
def sout0_B (hc0 : ¬cond0 i) (x0 : Vec F S1280x1 .i32) (x1 : Vec F S1280x1 .i32) (x2 : Vec F S1280x1 .f32) (x3 : Vec F S51200x64 .f32) (xs0 : Vec F S51200x64 .f32) : Vec F S51200x64 .f32 :=
  VS.read (Elt F) (VS.writes (Elt F) VS.junk (kernelRun0_B c i arg1 harg1 arg2 harg2 arg3 harg3 arg4 harg4 arg5 harg5 arg6 harg6 hc0 x0 x1 x2 x3 xs0).2.1)
end

section
variable (V : (c : Dev nD) → (b : Ref sig .tc) → Buf (Elt F) ((c : Thread nD τ).loc b))

-- Output block and accumulator after point n, by recursion on n.
def outsAt0 (c : Dev nD) : (n : ℕ) → n < cfg0.N → Vec F S51200x64 .f32 × Vec F S51200x64 .f32
  | 0, hn => (out0_A VO0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0 ⟨0, hn⟩).mpr rfl) (iblk0 V c 0 ⟨0, hn⟩) (iblk0 V c 1 ⟨0, hn⟩) (iblk0 V c 2 ⟨0, hn⟩) (iblk0 V c 3 ⟨0, hn⟩),
             sout0_A VS0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0 ⟨0, hn⟩).mpr rfl) (iblk0 V c 0 ⟨0, hn⟩) (iblk0 V c 1 ⟨0, hn⟩) (iblk0 V c 2 ⟨0, hn⟩) (iblk0 V c 3 ⟨0, hn⟩))
  | n + 1, hn => (out0_B VO0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => Nat.succ_ne_zero n ((hcond0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2,
             sout0_B VS0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => Nat.succ_ne_zero n ((hcond0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

theorem outsAt0_A (c : Dev nD) (t : Fin cfg0.N) (h0 : t.val = 0) :
    outsAt0 V c t.val t.isLt = (out0_A VO0 c (grid0.coords t) (ms0_0 t) (hs0_0 t) (ms0_1 t) (hs0_1 t) (ms0_2 t) (hs0_2 t) (ms0_3 t) (hs0_3 t) (ms0_4 t) (hs0_4 t) scM0 (Memref.isWhole_whole _) ((hcond0 t).mpr h0) (iblk0 V c 0 t) (iblk0 V c 1 t) (iblk0 V c 2 t) (iblk0 V c 3 t),
      sout0_A VS0 c (grid0.coords t) (ms0_0 t) (hs0_0 t) (ms0_1 t) (hs0_1 t) (ms0_2 t) (hs0_2 t) (ms0_3 t) (hs0_3 t) (ms0_4 t) (hs0_4 t) scM0 (Memref.isWhole_whole _) ((hcond0 t).mpr h0) (iblk0 V c 0 t) (iblk0 V c 1 t) (iblk0 V c 2 t) (iblk0 V c 3 t)) := by
  obtain ⟨n, hn⟩ := t
  cases n with
  | zero => exact rfl
  | succ n => exact absurd h0 (Nat.succ_ne_zero n)

theorem outsAt0_B (c : Dev nD) (t : Fin cfg0.N) (h0 : ¬t.val = 0) :
    outsAt0 V c t.val t.isLt = (out0_B VO0 c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0 t).mp h)) (iblk0 V c 0 t) (iblk0 V c 1 t) (iblk0 V c 2 t) (iblk0 V c 3 t) (outsAt0 V c (t.val - 1) (Nat.lt_of_le_of_lt (Nat.sub_le _ _) t.isLt)).2,
      sout0_B VS0 c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact absurd rfl h0
  | succ n => exact rfl

def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) : (dat0 V c).leavesExact 3 t = owns (c : Thread nD τ) (ms0_3 t) fullShare (iblk0 V c 3 t) := by
  unfold Dat.leavesExact; rw [liveAt0_3 t, after0_3]
theorem leaves0_4 (c : Dev nD) (t : Fin cfg0.N) : (dat0 V c).leavesExact 4 t = owns (c : Thread nD τ) (ms0_4 t) fullShare ((outsAt0 V c t.val t.isLt).1) := by
  unfold Dat.leavesExact; rw [liveAt0_4 t, after0_4]

set_option maxHeartbeats 4800000 in

-- The body at point t carries the invariant from t to t + 1.
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3, leaves0_4]
  by_cases h0 : t.val = 0
  · rw [outsAt0_A V c t h0]
    unfold out0_A sout0_A; (try dsimp only)
    rw [PhiS0_castSucc V c t, PhiS0_zero V c _ _ h0, PhiA0_eq]
    iintro ⟨⟨⟨HS0, Hrest⟩, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ ((hcond0 t).mpr h0) (iblk0 V c 0 t) (iblk0 V c 1 t) (iblk0 V c 2 t) (iblk0 V c 3 t)).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_A c _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A c _ _ _ _ _ _ _ _ _ _ _ _ _ _ _ _ _ _)
  · rw [outsAt0_B V c t h0]
    unfold out0_B sout0_B; (try dsimp only)
    rw [PhiS0_castSucc V c t, PhiS0_pos V c _ _ h0]
    iintro ⟨⟨⟨HS0, Hrest⟩, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ (fun h => h0 ((hcond0 t).mp h)) (iblk0 V c 0 t) (iblk0 V c 1 t) (iblk0 V c 2 t) (iblk0 V c 3 t) _).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_B c _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B c _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 625 := N_0; omega), PhiA0_eq]
  iintro ⟨⟨HS0, Hrest⟩, Hg⟩
  isplitl [HS0 Hrest]
  · isplitl [HS0]
    · iexists _; iexact HS0
    iexact Hrest
  iexact Hg
end

end Cert.Kernel.Hand

end
-- ==== Proof.KernelR1Runs.lean ====
/-
  Region 1 of the program (the 1-th propagation round): what its two control cases share. The body's one
  conditional asks whether the grid point is the first (there the accumulator is zeroed before anything is added);
  decided over the 625 points. No window is ever idle. The accumulator is the kernel's one scratch buffer.
-/
import proofs.«418351_j72971494359151_1_alg».proof.Proof.Gen.Kernel.Launch
import proofs.«418351_j72971494359151_1_alg».proof.Proof.Gen.Kernel.Skeleton
import proofs.«418351_j72971494359151_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's conditional: the grid point is the first one. -/
abbrev cond1 (i : grid1.Coords) : Prop := (Scalar.cmpi .ne (Scalar.extui (Scalar.cmpi .eq (BitVec.ofNat 32 (i 0).val) 0#32)) 0#32) = 1#1
/-- It holds exactly at point 0. -/
theorem hcond1 : ∀ t : Fin cfg1.N, cond1 (grid1.coords t) ↔ t.val = 0 :=
  (by decide +kernel : ∀ t : Fin grid1.N, cond1 (grid1.coords t) ↔ t.val = 0)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel

/-- Each window's current staging memref at point `t`, and its wholeness. -/
abbrev ms1_0 (t : Fin cfg1.N) : Memref sig .tc .vmem S1280x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1280x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1280x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S51200x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S51200x64 .f32 := win1_4.stage (cfg1.slots t 4)
abbrev hs1_4 (t : Fin cfg1.N) : (ms1_4 t).IsWhole := hstage1_4 ((cfg1.slots t 4).cast nbuf1_4)
/-- The accumulator: the kernel's scratch buffer, whole. -/
abbrev scM1 : Memref sig .tc .vmem S51200x64 .f32 := Memref.whole cc1_scratch0
abbrev VS1 : View sig .tc .vmem S51200x64 .f32 := scM1.view
/-- One staging buffer of the output window, through which its contents are stated. -/
abbrev VO1 : View sig .tc .vmem S51200x64 .f32 := (Memref.whole cc1_stg4_0 : Memref sig .tc .vmem S51200x64 .f32).view

/-- The class invariant with the accumulator split off: the accumulator owned at some contents, every other scoped
    buffer that is no staging buffer of this call at some contents, the generator register at some state. -/
theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [scM1, owns_whole]
  rfl

end Cert.Kernel.Hand

end
-- ==== Proof.KernelR1Body.lean ====
import proofs.«418351_j72971494359151_1_alg».proof.Proof.KernelR0Body
import proofs.«418351_j72971494359151_1_alg».proof.Proof.KernelR1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- Region 1 runs the same body function as region 0 (the two definitions are the same text), so the body's run and the pieces it leaves are region 0's, read through this region's buffers.

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
end

section
variable (V : (c : Dev nD) → (b : Ref sig .tc) → Buf (Elt F) ((c : Thread nD τ).loc b))

def outsAt1 (c : Dev nD) : (n : ℕ) → n < cfg1.N → Vec F S51200x64 .f32 × Vec F S51200x64 .f32
  | 0, hn => (out0_A VO1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1 ⟨0, hn⟩).mpr rfl) (iblk1 V c 0 ⟨0, hn⟩) (iblk1 V c 1 ⟨0, hn⟩) (iblk1 V c 2 ⟨0, hn⟩) (iblk1 V c 3 ⟨0, hn⟩),
             sout0_A VS1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1 ⟨0, hn⟩).mpr rfl) (iblk1 V c 0 ⟨0, hn⟩) (iblk1 V c 1 ⟨0, hn⟩) (iblk1 V c 2 ⟨0, hn⟩) (iblk1 V c 3 ⟨0, hn⟩))
  | n + 1, hn => (out0_B VO1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => Nat.succ_ne_zero n ((hcond1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
             sout0_B VS1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => Nat.succ_ne_zero n ((hcond1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val = 0) :
    outsAt1 V c t.val t.isLt = (out0_A VO1 c (grid1.coords t) (ms1_0 t) (hs1_0 t) (ms1_1 t) (hs1_1 t) (ms1_2 t) (hs1_2 t) (ms1_3 t) (hs1_3 t) (ms1_4 t) (hs1_4 t) scM1 (Memref.isWhole_whole _) ((hcond1 t).mpr h0) (iblk1 V c 0 t) (iblk1 V c 1 t) (iblk1 V c 2 t) (iblk1 V c 3 t),
      sout0_A VS1 c (grid1.coords t) (ms1_0 t) (hs1_0 t) (ms1_1 t) (hs1_1 t) (ms1_2 t) (hs1_2 t) (ms1_3 t) (hs1_3 t) (ms1_4 t) (hs1_4 t) scM1 (Memref.isWhole_whole _) ((hcond1 t).mpr h0) (iblk1 V c 0 t) (iblk1 V c 1 t) (iblk1 V c 2 t) (iblk1 V c 3 t)) := by
  obtain ⟨n, hn⟩ := t
  cases n with
  | zero => exact rfl
  | succ n => exact absurd h0 (Nat.succ_ne_zero n)

theorem outsAt1_B (c : Dev nD) (t : Fin cfg1.N) (h0 : ¬t.val = 0) :
    outsAt1 V c t.val t.isLt = (out0_B VO1 c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1 t).mp h)) (iblk1 V c 0 t) (iblk1 V c 1 t) (iblk1 V c 2 t) (iblk1 V c 3 t) (outsAt1 V c (t.val - 1) (Nat.lt_of_le_of_lt (Nat.sub_le _ _) t.isLt)).2,
      sout0_B VS1 c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact absurd rfl h0
  | succ n => exact rfl

def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]
theorem leaves1_4 (c : Dev nD) (t : Fin cfg1.N) : (dat1 V c).leavesExact 4 t = owns (c : Thread nD τ) (ms1_4 t) fullShare ((outsAt1 V c t.val t.isLt).1) := by
  unfold Dat.leavesExact; rw [liveAt1_4 t, after1_4]

set_option maxHeartbeats 4800000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4]
  by_cases h0 : t.val = 0
  · rw [outsAt1_A V c t h0]
    unfold out0_A sout0_A; (try dsimp only)
    rw [PhiS1_castSucc V c t, PhiS1_zero V c _ _ h0, PhiA1_eq]
    iintro ⟨⟨⟨HS0, Hrest⟩, Hg⟩, Ho, ⟨%d0, H0⟩, ⟨%d1, H1⟩, ⟨%d2, H2⟩, ⟨%d3, H3⟩, ⟨%d4, H4⟩⟩
    iapply ((kernelRun0_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1 t).mpr h0) (iblk1 V c 0 t) (iblk1 V c 1 t) (iblk1 V c 2 t) (iblk1 V c 3 t)).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_A c _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A c _ _ _ _ _ _ _ _ _ _ _ _ _ _ _ _ _ _)
  · rw [outsAt1_B V c t h0]
    unfold out0_B sout0_B; (try dsimp only)
    rw [PhiS1_castSucc V c t, PhiS1_pos V c _ _ h0]
    iintro ⟨⟨⟨HS0, Hrest⟩, Hg⟩, Ho, ⟨%d0, H0⟩, ⟨%d1, H1⟩, ⟨%d2, H2⟩, ⟨%d3, H3⟩, ⟨%d4, H4⟩⟩
    iapply ((kernelRun0_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1 t).mp h)) (iblk1 V c 0 t) (iblk1 V c 1 t) (iblk1 V c 2 t) (iblk1 V c 3 t) _).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_B c _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B c _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 625 := N_1; omega), PhiA1_eq]
  iintro ⟨⟨HS0, Hrest⟩, Hg⟩
  isplitl [HS0 Hrest]
  · isplitl [HS0]
    · iexists _; iexact HS0
    iexact Hrest
  iexact Hg
end

end Cert.Kernel.Hand

end
-- ==== Proof.KernelR2Runs.lean ====
/-
  Region 2 of the program (the 2-th propagation round): what its two control cases share. The body's one
  conditional asks whether the grid point is the first (there the accumulator is zeroed before anything is added);
  decided over the 625 points. No window is ever idle. The accumulator is the kernel's one scratch buffer.
-/
import proofs.«418351_j72971494359151_1_alg».proof.Proof.Gen.Kernel.Launch
import proofs.«418351_j72971494359151_1_alg».proof.Proof.Gen.Kernel.Skeleton
import proofs.«418351_j72971494359151_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's conditional: the grid point is the first one. -/
abbrev cond2 (i : grid2.Coords) : Prop := (Scalar.cmpi .ne (Scalar.extui (Scalar.cmpi .eq (BitVec.ofNat 32 (i 0).val) 0#32)) 0#32) = 1#1
/-- It holds exactly at point 0. -/
theorem hcond2 : ∀ t : Fin cfg2.N, cond2 (grid2.coords t) ↔ t.val = 0 :=
  (by decide +kernel : ∀ t : Fin grid2.N, cond2 (grid2.coords t) ↔ t.val = 0)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel

/-- Each window's current staging memref at point `t`, and its wholeness. -/
abbrev ms2_0 (t : Fin cfg2.N) : Memref sig .tc .vmem S1280x1 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1280x1 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1280x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S51200x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S51200x64 .f32 := win2_4.stage (cfg2.slots t 4)
abbrev hs2_4 (t : Fin cfg2.N) : (ms2_4 t).IsWhole := hstage2_4 ((cfg2.slots t 4).cast nbuf2_4)
/-- The accumulator: the kernel's scratch buffer, whole. -/
abbrev scM2 : Memref sig .tc .vmem S51200x64 .f32 := Memref.whole cc2_scratch0
abbrev VS2 : View sig .tc .vmem S51200x64 .f32 := scM2.view
/-- One staging buffer of the output window, through which its contents are stated. -/
abbrev VO2 : View sig .tc .vmem S51200x64 .f32 := (Memref.whole cc2_stg4_0 : Memref sig .tc .vmem S51200x64 .f32).view

/-- The class invariant with the accumulator split off: the accumulator owned at some contents, every other scoped
    buffer that is no staging buffer of this call at some contents, the generator register at some state. -/
theorem PhiA2_eq (c : Dev nD) :
    (Pipeline.ΦA spec2 c : sProp 𝕄)
      = iprop(iprop((∃ d, owns (c : Thread nD τ) scM2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA
  rw [Pipeline.scopedRest_split_of_list spec2 c [cc2_scratch0] (by decide) (by decide)]
  simp only [scM2, owns_whole]
  rfl

end Cert.Kernel.Hand

end
-- ==== Proof.KernelR2Body.lean ====
import proofs.«418351_j72971494359151_1_alg».proof.Proof.KernelR0Body
import proofs.«418351_j72971494359151_1_alg».proof.Proof.KernelR2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- Region 2 runs the same body function as region 0 (the two definitions are the same text), so the body's run and the pieces it leaves are region 0's, read through this region's buffers.

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
end

section
variable (V : (c : Dev nD) → (b : Ref sig .tc) → Buf (Elt F) ((c : Thread nD τ).loc b))

def outsAt2 (c : Dev nD) : (n : ℕ) → n < cfg2.N → Vec F S51200x64 .f32 × Vec F S51200x64 .f32
  | 0, hn => (out0_A VO2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2 (Memref.isWhole_whole _) ((hcond2 ⟨0, hn⟩).mpr rfl) (iblk2 V c 0 ⟨0, hn⟩) (iblk2 V c 1 ⟨0, hn⟩) (iblk2 V c 2 ⟨0, hn⟩) (iblk2 V c 3 ⟨0, hn⟩),
             sout0_A VS2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2 (Memref.isWhole_whole _) ((hcond2 ⟨0, hn⟩).mpr rfl) (iblk2 V c 0 ⟨0, hn⟩) (iblk2 V c 1 ⟨0, hn⟩) (iblk2 V c 2 ⟨0, hn⟩) (iblk2 V c 3 ⟨0, hn⟩))
  | n + 1, hn => (out0_B VO2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => Nat.succ_ne_zero n ((hcond2 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2,
             sout0_B VS2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => Nat.succ_ne_zero n ((hcond2 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)

theorem outsAt2_A (c : Dev nD) (t : Fin cfg2.N) (h0 : t.val = 0) :
    outsAt2 V c t.val t.isLt = (out0_A VO2 c (grid2.coords t) (ms2_0 t) (hs2_0 t) (ms2_1 t) (hs2_1 t) (ms2_2 t) (hs2_2 t) (ms2_3 t) (hs2_3 t) (ms2_4 t) (hs2_4 t) scM2 (Memref.isWhole_whole _) ((hcond2 t).mpr h0) (iblk2 V c 0 t) (iblk2 V c 1 t) (iblk2 V c 2 t) (iblk2 V c 3 t),
      sout0_A VS2 c (grid2.coords t) (ms2_0 t) (hs2_0 t) (ms2_1 t) (hs2_1 t) (ms2_2 t) (hs2_2 t) (ms2_3 t) (hs2_3 t) (ms2_4 t) (hs2_4 t) scM2 (Memref.isWhole_whole _) ((hcond2 t).mpr h0) (iblk2 V c 0 t) (iblk2 V c 1 t) (iblk2 V c 2 t) (iblk2 V c 3 t)) := by
  obtain ⟨n, hn⟩ := t
  cases n with
  | zero => exact rfl
  | succ n => exact absurd h0 (Nat.succ_ne_zero n)

theorem outsAt2_B (c : Dev nD) (t : Fin cfg2.N) (h0 : ¬t.val = 0) :
    outsAt2 V c t.val t.isLt = (out0_B VO2 c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2 t).mp h)) (iblk2 V c 0 t) (iblk2 V c 1 t) (iblk2 V c 2 t) (iblk2 V c 3 t) (outsAt2 V c (t.val - 1) (Nat.lt_of_le_of_lt (Nat.sub_le _ _) t.isLt)).2,
      sout0_B VS2 c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2 t).mp h)) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact absurd rfl h0
  | succ n => exact rfl

def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

theorem leaves2_0 (c : Dev nD) (t : Fin cfg2.N) : (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) : (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) : (dat2 V c).leavesExact 2 t = owns (c : Thread nD τ) (ms2_2 t) fullShare (iblk2 V c 2 t) := by
  unfold Dat.leavesExact; rw [liveAt2_2 t, after2_2]
theorem leaves2_3 (c : Dev nD) (t : Fin cfg2.N) : (dat2 V c).leavesExact 3 t = owns (c : Thread nD τ) (ms2_3 t) fullShare (iblk2 V c 3 t) := by
  unfold Dat.leavesExact; rw [liveAt2_3 t, after2_3]
theorem leaves2_4 (c : Dev nD) (t : Fin cfg2.N) : (dat2 V c).leavesExact 4 t = owns (c : Thread nD τ) (ms2_4 t) fullShare ((outsAt2 V c t.val t.isLt).1) := by
  unfold Dat.leavesExact; rw [liveAt2_4 t, after2_4]

set_option maxHeartbeats 4800000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4]
  by_cases h0 : t.val = 0
  · rw [outsAt2_A V c t h0]
    unfold out0_A sout0_A; (try dsimp only)
    rw [PhiS2_castSucc V c t, PhiS2_zero V c _ _ h0, PhiA2_eq]
    iintro ⟨⟨⟨HS0, Hrest⟩, Hg⟩, Ho, ⟨%d0, H0⟩, ⟨%d1, H1⟩, ⟨%d2, H2⟩, ⟨%d3, H3⟩, ⟨%d4, H4⟩⟩
    iapply ((kernelRun0_A c (grid2.coords t) (ms2_0 t) (hs2_0 t) (ms2_1 t) (hs2_1 t) (ms2_2 t) (hs2_2 t) (ms2_3 t) (hs2_3 t) (ms2_4 t) (hs2_4 t) scM2 (Memref.isWhole_whole _) ((hcond2 t).mpr h0) (iblk2 V c 0 t) (iblk2 V c 1 t) (iblk2 V c 2 t) (iblk2 V c 3 t)).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_A c _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A c _ _ _ _ _ _ _ _ _ _ _ _ _ _ _ _ _ _)
  · rw [outsAt2_B V c t h0]
    unfold out0_B sout0_B; (try dsimp only)
    rw [PhiS2_castSucc V c t, PhiS2_pos V c _ _ h0]
    iintro ⟨⟨⟨HS0, Hrest⟩, Hg⟩, Ho, ⟨%d0, H0⟩, ⟨%d1, H1⟩, ⟨%d2, H2⟩, ⟨%d3, H3⟩, ⟨%d4, H4⟩⟩
    iapply ((kernelRun0_B c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2 t).mp h)) (iblk2 V c 0 t) (iblk2 V c 1 t) (iblk2 V c 2 t) (iblk2 V c 3 t) _).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_B c _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B c _ _ _ _ _ _ _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 625 := N_2; omega), PhiA2_eq]
  iintro ⟨⟨HS0, Hrest⟩, Hg⟩
  isplitl [HS0 Hrest]
  · isplitl [HS0]
    · iexists _; iexact HS0
    iexact Hrest
  iexact Hg
end

end Cert.Kernel.Hand

end
-- ==== Proof.KernelRxRunAll.lean ====
/-
  The whole run of the program: six stretches of host operations, the three propagation rounds' regions, and the last
  stretch of host operations, composed in order. The core's buffer contents at each boundary are a fold from the launch
  memory: a host stretch applies its operations; a region leaves its arrays at what the pipeline's write-backs leave
  and every other buffer as it found it. Every weakly fair execution terminates, nothing faulting, and every final
  memory holds every unscoped buffer at the fold's last stage; read at the two argument arrays, that is the frame claim.
-/
import proofs.«418351_j72971494359151_1_alg».proof.Proof.KernelR0Body
import proofs.«418351_j72971494359151_1_alg».proof.Proof.KernelR1Body
import proofs.«418351_j72971494359151_1_alg».proof.Proof.KernelR2Body
import proofs.«418351_j72971494359151_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s unscoped buffers when the first region is entered: the launch memory after the six host stretches. -/
abbrev W6 : Dev nD → Valuation τ sig (Elt F) := fun c => Gen.V6 m c
abbrev U6 : (c : Dev nD) → (b : Ref sig .tc) → Buf (Elt F) ((c : Thread nD τ).loc b) := fun c b => W6 m c b

/-- At round 0's exit: its arrays at what the pipeline leaves, every other buffer as entered. -/
def W7 (c : Dev nD) : Valuation τ sig (Elt F) :=
  Pipeline.withArrays spec0 c (W6 m c) fun w => (dat0 (U6 m) c).arrAt w cfg0.N
theorem W7_arr (c : Dev nD) (w : Fin cfg0.W) :
    W7 m c (Proc.devRef .tc (Pipeline.arrRef spec0 w)) = (dat0 (U6 m) c).arrAt w cfg0.N := by
  unfold W7; exact Pipeline.withArrays_arr spec0 launch0.win.arr_inj c _ _ w
theorem W7_of_ne (c : Dev nD) (b : Ref sig .tc) (hb : ∀ w, Pipeline.arrRef spec0 w ≠ b) :
    W7 m c (Proc.devRef .tc b) = W6 m c (Proc.devRef .tc b) := by
  unfold W7; exact Pipeline.withArrays_of_ne spec0 c _ _ b hb
abbrev U7 : (c : Dev nD) → (b : Ref sig .tc) → Buf (Elt F) ((c : Thread nD τ).loc b) := fun c b => W7 m c b
theorem hF0 (c : Dev nD) (w : Fin cfg0.W) : (dat0 (U6 m) c).arrAt w cfg0.N = U7 m c (Pipeline.arrRef spec0 w) :=
  (W7_arr m c w).symm
theorem hrest0 (c : Dev nD) : ∀ b, b ∉ Finset.univ.image (Pipeline.arrRef spec0) → U7 m c b = U6 m c b :=
  fun b hb => W7_of_ne m c b fun w e => hb (Finset.mem_image.mpr ⟨w, Finset.mem_univ _, e⟩)

/-- At round 1's exit: its arrays at what the pipeline leaves, every other buffer as entered. -/
def W8 (c : Dev nD) : Valuation τ sig (Elt F) :=
  Pipeline.withArrays spec1 c (W7 m c) fun w => (dat1 (U7 m) c).arrAt w cfg1.N
theorem W8_arr (c : Dev nD) (w : Fin cfg1.W) :
    W8 m c (Proc.devRef .tc (Pipeline.arrRef spec1 w)) = (dat1 (U7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
abbrev U8 : (c : Dev nD) → (b : Ref sig .tc) → Buf (Elt F) ((c : Thread nD τ).loc b) := fun c b => W8 m c b
theorem hF1 (c : Dev nD) (w : Fin cfg1.W) : (dat1 (U7 m) c).arrAt w cfg1.N = U8 m c (Pipeline.arrRef spec1 w) :=
  (W8_arr m c w).symm
theorem hrest1 (c : Dev nD) : ∀ b, b ∉ Finset.univ.image (Pipeline.arrRef spec1) → U8 m c b = U7 m c b :=
  fun b hb => W8_of_ne m c b fun w e => hb (Finset.mem_image.mpr ⟨w, Finset.mem_univ _, e⟩)

/-- At round 2's exit: its arrays at what the pipeline leaves, every other buffer as entered. -/
def W9 (c : Dev nD) : Valuation τ sig (Elt F) :=
  Pipeline.withArrays spec2 c (W8 m c) fun w => (dat2 (U8 m) c).arrAt w cfg2.N
theorem W9_arr (c : Dev nD) (w : Fin cfg2.W) :
    W9 m c (Proc.devRef .tc (Pipeline.arrRef spec2 w)) = (dat2 (U8 m) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb
abbrev U9 : (c : Dev nD) → (b : Ref sig .tc) → Buf (Elt F) ((c : Thread nD τ).loc b) := fun c b => W9 m c b
theorem hF2 (c : Dev nD) (w : Fin cfg2.W) : (dat2 (U8 m) c).arrAt w cfg2.N = U9 m c (Pipeline.arrRef spec2 w) :=
  (W9_arr m c w).symm
theorem hrest2 (c : Dev nD) : ∀ b, b ∉ Finset.univ.image (Pipeline.arrRef spec2) → U9 m c b = U8 m c b :=
  fun b hb => W9_of_ne m c b fun w e => hb (Finset.mem_image.mpr ⟨w, Finset.mem_univ _, e⟩)

/-- After the last host stretch. -/
abbrev W10 : Dev nD → Valuation τ sig (Elt F) := fun c => StableHlo.after hostOps3 (W9 m c)

/-! ## The arguments end as launched -/

theorem W10_of (c : Dev nD) (r : Ref sig .tc) (h : r ∉ Gen.hostOps3_W) : W10 m c r = W9 m c r :=
  StableHlo.after_of_writes_sub hostOps3 _ Gen.hostOps3_writes h

theorem W10_main_arg0 (c : Dev nD) : W10 m c main_arg0 = m ((c : Thread nD τ).loc main_arg0) :=
  (W10_of m c main_arg0 (by decide)).trans <| (W9_of_ne m c main_arg0 (by decide)).trans <| (W8_of_ne m c main_arg0 (by decide)).trans <|
    (W7_of_ne m c main_arg0 (by decide)).trans <| (Gen.V6_of m c main_arg0 (by decide)).trans <| (Gen.V5_of m c main_arg0 (by decide)).trans <|
    (Gen.V4_of m c main_arg0 (by decide)).trans <| (Gen.V3_of m c main_arg0 (by decide)).trans <| (Gen.V2_of m c main_arg0 (by decide)).trans <|
    (Gen.V1_of m c main_arg0 (by decide)).trans rfl
theorem W10_main_arg1 (c : Dev nD) : W10 m c main_arg1 = m ((c : Thread nD τ).loc main_arg1) :=
  (W10_of m c main_arg1 (by decide)).trans <| (W9_of_ne m c main_arg1 (by decide)).trans <| (W8_of_ne m c main_arg1 (by decide)).trans <|
    (W7_of_ne m c main_arg1 (by decide)).trans <| (Gen.V6_of m c main_arg1 (by decide)).trans <| (Gen.V5_of m c main_arg1 (by decide)).trans <|
    (Gen.V4_of m c main_arg1 (by decide)).trans <| (Gen.V3_of m c main_arg1 (by decide)).trans <| (Gen.V2_of m c main_arg1 (by decide)).trans <|
    (Gen.V1_of m c main_arg1 (by decide)).trans rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (U6 m) c
  | ⟨1, _⟩ => fun c => dat1 (U7 m) c
  | ⟨2, _⟩ => fun c => dat2 (U8 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m c) ∗ ∃ r, prngReg c r)

/-! ## The regions as segments -/

set_option backward.isDefEq.respectTransparency.types false in
/-- Round 0's region over the thread state: entered from every unscoped buffer at its entry contents, left with the
    region's arrays at what the pipeline leaves; the generator register goes into the invariant and comes back;
    nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U6 m) c).loose
  hwaits := Pipeline.hwaits_of_owed_zero _ _ _ _ L lv 0 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec0 c (U6 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 0).pre c (fun _ => fullShare) (adm 0).1 ∗ Pipeline.scopedRest (Ix := Unit) (Name := ℕ) (U := UR sig nD τ) (Lvl := ℕ) (Val := Elt F) spec0 c) : sProp 𝕄)
        ⊢ Pipeline.ΦA spec0 c := by
      unfold Pipeline.ΦA
      iintro ⟨Hp, -, Hr⟩
      isplitl [Hr]; · iexact Hr
      iexact Hp
    exact h1.trans (hin0 (U6 m) c)
  hout c := by
    rw [Pipeline.ownSems0_none]
    have h1 : (Pipeline.ΦA spec0 c : sProp 𝕄)
        ⊢ iprop((∃ r, prngReg c r) ∗ emp ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (U6 m) c).trans h1
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U6 m c) (U7 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Round 1's region over the thread state: entered from every unscoped buffer at its entry contents, left with the
    region's arrays at what the pipeline leaves; the generator register goes into the invariant and comes back;
    nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (U7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 1).pre c (fun _ => fullShare) (adm 1).1 ∗ Pipeline.scopedRest (Ix := Unit) (Name := ℕ) (U := UR sig nD τ) (Lvl := ℕ) (Val := Elt F) spec1 c) : sProp 𝕄)
        ⊢ Pipeline.ΦA spec1 c := by
      unfold Pipeline.ΦA
      iintro ⟨Hp, -, Hr⟩
      isplitl [Hr]; · iexact Hr
      iexact Hp
    exact h1.trans (hin1 (U7 m) c)
  hout c := by
    rw [Pipeline.ownSems0_none]
    have h1 : (Pipeline.ΦA spec1 c : sProp 𝕄)
        ⊢ iprop((∃ r, prngReg c r) ∗ emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (U7 m) c).trans h1
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U7 m c) (U8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Round 2's region over the thread state: entered from every unscoped buffer at its entry contents, left with the
    region's arrays at what the pipeline leaves; the generator register goes into the invariant and comes back;
    nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U8 m) c).loose
  hwaits := Pipeline.hwaits_of_owed_zero _ _ _ _ L lv 2 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec2 c (U8 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 2).pre c (fun _ => fullShare) (adm 2).1 ∗ Pipeline.scopedRest (Ix := Unit) (Name := ℕ) (U := UR sig nD τ) (Lvl := ℕ) (Val := Elt F) spec2 c) : sProp 𝕄)
        ⊢ Pipeline.ΦA spec2 c := by
      unfold Pipeline.ΦA
      iintro ⟨Hp, -, Hr⟩
      isplitl [Hr]; · iexact Hr
      iexact Hp
    exact h1.trans (hin2 (U8 m) c)
  hout c := by
    rw [Pipeline.ownSems0_none]
    have h1 : (Pipeline.ΦA spec2 c : sProp 𝕄)
        ⊢ iprop((∃ r, prngReg c r) ∗ emp ∗ Pipeline.scopedRest (Ix := Unit) (Name := ℕ) (U := UR sig nD τ) (Lvl := ℕ) (Val := Elt F) spec2 c) := by
      unfold Pipeline.ΦA
      iintro ⟨Hr, Hp⟩
      isplitl [Hp]; · iexact Hp
      isplitr; · iempintro
      iexact Hr
    exact (hout2 (U8 m) c).trans h1
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U8 m c) (U9 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub Gen.hostOps0_fresh (Gen.V0 m)),
    .host (hseg hostOps0_1 hostOps0_1_sub Gen.hostOps0_1_fresh (Gen.V1 m)),
    .host (hseg hostOps0_2 hostOps0_2_sub Gen.hostOps0_2_fresh (Gen.V2 m)),
    .host (hseg hostOps0_3 hostOps0_3_sub Gen.hostOps0_3_fresh (Gen.V3 m)),
    .host (hseg hostOps0_4 hostOps0_4_sub Gen.hostOps0_4_fresh (Gen.V4 m)),
    .host (hseg hostOps0_5 hostOps0_5_sub Gen.hostOps0_5_fresh (Gen.V5 m)),
    .region (reg0 m),
    .region (reg1 m),
    .region (reg2 m),
    .host (hseg hostOps3 hostOps3_sub Gen.hostOps3_fresh (W9 m)) ]

theorem main_run (c : Dev nD) : main (F := F) c = Pipeline.Seg.run (segs m) := (main_chain c).trans (by chain_rfl)

variable (ρ : Dev nD → PrngReg)

set_option backward.isDefEq.respectTransparency.types false in
/-- THE RUN: from any memory with zero counters every weakly fair execution of @main terminates, nothing faulting,
    and every final memory holds every unscoped buffer of every core at the fold's last stage. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (W10 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W10 m c) ∗ R c) : sProp 𝕄) ⊢ _
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W10_main_arg0 m c), (h c _ (mem_uc main_arg1 (by decide))).trans (W10_main_arg1 m c)⟩) (run_all m ρ)

end Cert.Kernel.Hand

end
-- ==== Proof.KernelIdealR0Runs.lean ====
/-
  Region 0 of the program (the 0-th propagation round): what its two control cases share. The body's one
  conditional asks whether the grid point is the first (there the accumulator is zeroed before anything is added);
  decided over the 625 points. No window is ever idle. The accumulator is the kernel's one scratch buffer.
-/
import proofs.«418351_j72971494359151_1_alg».proof.Proof.Gen.KernelIdeal.Launch
import proofs.«418351_j72971494359151_1_alg».proof.Proof.Gen.KernelIdeal.Skeleton
import proofs.«418351_j72971494359151_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's conditional: the grid point is the first one. -/
abbrev cond0 (i : grid0.Coords) : Prop := (Scalar.cmpi .ne (Scalar.extui (Scalar.cmpi .eq (BitVec.ofNat 32 (i 0).val) 0#32)) 0#32) = 1#1
/-- It holds exactly at point 0. -/
theorem hcond0 : ∀ t : Fin cfg0.N, cond0 (grid0.coords t) ↔ t.val = 0 :=
  (by decide +kernel : ∀ t : Fin grid0.N, cond0 (grid0.coords t) ↔ t.val = 0)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel

/-- Each window's current staging memref at point `t`, and its wholeness. -/
abbrev ms0_0 (t : Fin cfg0.N) : Memref sig .tc .vmem S1280x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1280x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1280x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S51200x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S51200x64 .f32 := win0_4.stage (cfg0.slots t 4)
abbrev hs0_4 (t : Fin cfg0.N) : (ms0_4 t).IsWhole := hstage0_4 ((cfg0.slots t 4).cast nbuf0_4)
/-- The accumulator: the kernel's scratch buffer, whole. -/
abbrev scM0 : Memref sig .tc .vmem S51200x64 .f32 := Memref.whole cc0_scratch0
abbrev VS0 : View sig .tc .vmem S51200x64 .f32 := scM0.view
/-- One staging buffer of the output window, through which its contents are stated. -/
abbrev VO0 : View sig .tc .vmem S51200x64 .f32 := (Memref.whole cc0_stg4_0 : Memref sig .tc .vmem S51200x64 .f32).view

/-- The class invariant with the accumulator split off: the accumulator owned at some contents, every other scoped
    buffer that is no staging buffer of this call at some contents, the generator register at some state. -/
theorem PhiA0_eq (c : Dev nD) :
    (Pipeline.ΦA spec0 c : sProp 𝕄)
      = iprop(iprop((∃ d, owns (c : Thread nD τ) scM0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [scM0, owns_whole]
  rfl

end Cert.KernelIdeal.Hand

end
-- ==== Proof.KernelIdealR0RunB.lean ====
/-
  Region 0, a grid point after the first: the body's run. The conditional is not taken; the body loads the three
  edge blocks and the node table, adds to each 2048-row slice of the accumulator what the block's edges send there,
  and copies the accumulator into the output buffer. Found by running the body: the pieces the output buffer and the
  accumulator end with.
-/
import proofs.«418351_j72971494359151_1_alg».proof.Proof.KernelIdealR0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S1280x1 .i32) (harg1 : arg1.IsWhole) (arg2 : Memref sig .tc .vmem S1280x1 .i32) (harg2 : arg2.IsWhole) (arg3 : Memref sig .tc .vmem S1280x1 .f32) (harg3 : arg3.IsWhole) (arg4 : Memref sig .tc .vmem S51200x64 .f32) (harg4 : arg4.IsWhole) (arg5 : Memref sig .tc .vmem S51200x64 .f32) (harg5 : arg5.IsWhole) (arg6 : Memref sig .tc .vmem S51200x64 .f32) (harg6 : arg6.IsWhole) (hc0 : ¬cond0 i)
    (x0 : Vec F S1280x1 .i32) (x1 : Vec F S1280x1 .i32) (x2 : Vec F S1280x1 .f32) (x3 : Vec F S51200x64 .f32) (xs0 : Vec F S51200x64 .f32) :
    Σ' (L4 : List (View.Piece (Elt F) S51200x64 .f32)), { LS0 : List (View.Piece (Elt F) S51200x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc0__prop_kernel i arg1 harg1 arg2 harg2 arg3 harg3 arg4 harg4 arg5 harg5 arg6 harg6) K } := by
  refine ⟨?_, ?_, fun E K => ?run⟩
  case run =>
    simp only [cc0__prop_kernel_eq_skeleton]; unfold cc0__prop_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

end Cert.KernelIdeal.Hand

end
-- ==== Proof.KernelIdealR0RunA.lean ====
/-
  Region 0, the first grid point: the body's run. The conditional is taken: the accumulator, at whatever it held,
  is first zeroed whole; then as at every point the body adds to each 2048-row slice of the accumulator what the
  block's edges send there, and copies the accumulator into the output buffer. Found by running the body: the pieces
  the output buffer and the accumulator end with.
-/
import proofs.«418351_j72971494359151_1_alg».proof.Proof.KernelIdealR0RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S1280x1 .i32) (harg1 : arg1.IsWhole) (arg2 : Memref sig .tc .vmem S1280x1 .i32) (harg2 : arg2.IsWhole) (arg3 : Memref sig .tc .vmem S1280x1 .f32) (harg3 : arg3.IsWhole) (arg4 : Memref sig .tc .vmem S51200x64 .f32) (harg4 : arg4.IsWhole) (arg5 : Memref sig .tc .vmem S51200x64 .f32) (harg5 : arg5.IsWhole) (arg6 : Memref sig .tc .vmem S51200x64 .f32) (harg6 : arg6.IsWhole) (hc0 : cond0 i)
    (x0 : Vec F S1280x1 .i32) (x1 : Vec F S1280x1 .i32) (x2 : Vec F S1280x1 .f32) (x3 : Vec F S51200x64 .f32) :
    Σ' (L4 : List (View.Piece (Elt F) S51200x64 .f32)), { LS0 : List (View.Piece (Elt F) S51200x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc0__prop_kernel i arg1 harg1 arg2 harg2 arg3 harg3 arg4 harg4 arg5 harg5 arg6 harg6) K } := by
  refine ⟨?_, ?_, fun E K => ?run⟩
  case run =>
    simp only [cc0__prop_kernel_eq_skeleton]; unfold cc0__prop_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

end Cert.KernelIdeal.Hand

end
-- ==== Proof.KernelIdealR0Body.lean ====
import proofs.«418351_j72971494359151_1_alg».proof.Proof.KernelIdealR0RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
end

section
variable (VO VS : View sig .tc .vmem S51200x64 .f32) (c : Dev nD) (i : grid0.Coords) (arg1 : Memref sig .tc .vmem S1280x1 .i32) (harg1 : arg1.IsWhole) (arg2 : Memref sig .tc .vmem S1280x1 .i32) (harg2 : arg2.IsWhole) (arg3 : Memref sig .tc .vmem S1280x1 .f32) (harg3 : arg3.IsWhole) (arg4 : Memref sig .tc .vmem S51200x64 .f32) (harg4 : arg4.IsWhole) (arg5 : Memref sig .tc .vmem S51200x64 .f32) (harg5 : arg5.IsWhole) (arg6 : Memref sig .tc .vmem S51200x64 .f32) (harg6 : arg6.IsWhole)

theorem cover0_A (hc0 : cond0 i) (x0 : Vec F S1280x1 .i32) (x1 : Vec F S1280x1 .i32) (x2 : Vec F S1280x1 .f32) (x3 : Vec F S51200x64 .f32) (y : S51200x64.Idx) :
    ∃ pc ∈ (kernelRun0_A c i arg1 harg1 arg2 harg2 arg3 harg3 arg4 harg4 arg5 harg5 arg6 harg6 hc0 x0 x1 x2 x3).1, y ∈ pc.1.set :=
  View.cover_of_tiledL (kernelRun0_A c i arg1 harg1 arg2 harg2 arg3 harg3 arg4 harg4 arg5 harg5 arg6 harg6 hc0 x0 x1 x2 x3).1 S51200x64.size (by sl_kernel_rfl) y
def out0_A (hc0 : cond0 i) (x0 : Vec F S1280x1 .i32) (x1 : Vec F S1280x1 .i32) (x2 : Vec F S1280x1 .f32) (x3 : Vec F S51200x64 .f32) : Vec F S51200x64 .f32 :=
  VO.read (Elt F) (VO.writes (Elt F) VO.junk (kernelRun0_A c i arg1 harg1 arg2 harg2 arg3 harg3 arg4 harg4 arg5 harg5 arg6 harg6 hc0 x0 x1 x2 x3).1)
theorem scover0_A (hc0 : cond0 i) (x0 : Vec F S1280x1 .i32) (x1 : Vec F S1280x1 .i32) (x2 : Vec F S1280x1 .f32) (x3 : Vec F S51200x64 .f32) (y : S51200x64.Idx) :
    ∃ pc ∈ (kernelRun0_A c i arg1 harg1 arg2 harg2 arg3 harg3 arg4 harg4 arg5 harg5 arg6 harg6 hc0 x0 x1 x2 x3).2.1, y ∈ pc.1.set :=
  View.cover_of_tiledL (kernelRun0_A c i arg1 harg1 arg2 harg2 arg3 harg3 arg4 harg4 arg5 harg5 arg6 harg6 hc0 x0 x1 x2 x3).2.1 S51200x64.size (by sl_kernel_rfl) y
def sout0_A (hc0 : cond0 i) (x0 : Vec F S1280x1 .i32) (x1 : Vec F S1280x1 .i32) (x2 : Vec F S1280x1 .f32) (x3 : Vec F S51200x64 .f32) : Vec F S51200x64 .f32 :=
  VS.read (Elt F) (VS.writes (Elt F) VS.junk (kernelRun0_A c i arg1 harg1 arg2 harg2 arg3 harg3 arg4 harg4 arg5 harg5 arg6 harg6 hc0 x0 x1 x2 x3).2.1)

theorem cover0_B (hc0 : ¬cond0 i) (x0 : Vec F S1280x1 .i32) (x1 : Vec F S1280x1 .i32) (x2 : Vec F S1280x1 .f32) (x3 : Vec F S51200x64 .f32) (xs0 : Vec F S51200x64 .f32) (y : S51200x64.Idx) :
    ∃ pc ∈ (kernelRun0_B c i arg1 harg1 arg2 harg2 arg3 harg3 arg4 harg4 arg5 harg5 arg6 harg6 hc0 x0 x1 x2 x3 xs0).1, y ∈ pc.1.set :=
  View.cover_of_tiledL (kernelRun0_B c i arg1 harg1 arg2 harg2 arg3 harg3 arg4 harg4 arg5 harg5 arg6 harg6 hc0 x0 x1 x2 x3 xs0).1 S51200x64.size (by sl_kernel_rfl) y
def out0_B (hc0 : ¬cond0 i) (x0 : Vec F S1280x1 .i32) (x1 : Vec F S1280x1 .i32) (x2 : Vec F S1280x1 .f32) (x3 : Vec F S51200x64 .f32) (xs0 : Vec F S51200x64 .f32) : Vec F S51200x64 .f32 :=
  VO.read (Elt F) (VO.writes (Elt F) VO.junk (kernelRun0_B c i arg1 harg1 arg2 harg2 arg3 harg3 arg4 harg4 arg5 harg5 arg6 harg6 hc0 x0 x1 x2 x3 xs0).1)
theorem scover0_B (hc0 : ¬cond0 i) (x0 : Vec F S1280x1 .i32) (x1 : Vec F S1280x1 .i32) (x2 : Vec F S1280x1 .f32) (x3 : Vec F S51200x64 .f32) (xs0 : Vec F S51200x64 .f32) (y : S51200x64.Idx) :
    ∃ pc ∈ (kernelRun0_B c i arg1 harg1 arg2 harg2 arg3 harg3 arg4 harg4 arg5 harg5 arg6 harg6 hc0 x0 x1 x2 x3 xs0).2.1, y ∈ pc.1.set :=
  View.cover_of_tiledL (kernelRun0_B c i arg1 harg1 arg2 harg2 arg3 harg3 arg4 harg4 arg5 harg5 arg6 harg6 hc0 x0 x1 x2 x3 xs0).2.1 S2048x64.size (by sl_kernel_rfl) y
def sout0_B (hc0 : ¬cond0 i) (x0 : Vec F S1280x1 .i32) (x1 : Vec F S1280x1 .i32) (x2 : Vec F S1280x1 .f32) (x3 : Vec F S51200x64 .f32) (xs0 : Vec F S51200x64 .f32) : Vec F S51200x64 .f32 :=
  VS.read (Elt F) (VS.writes (Elt F) VS.junk (kernelRun0_B c i arg1 harg1 arg2 harg2 arg3 harg3 arg4 harg4 arg5 harg5 arg6 harg6 hc0 x0 x1 x2 x3 xs0).2.1)
end

section
variable (V : (c : Dev nD) → (b : Ref sig .tc) → Buf (Elt F) ((c : Thread nD τ).loc b))

-- Output block and accumulator after point n, by recursion on n.
def outsAt0 (c : Dev nD) : (n : ℕ) → n < cfg0.N → Vec F S51200x64 .f32 × Vec F S51200x64 .f32
  | 0, hn => (out0_A VO0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0 ⟨0, hn⟩).mpr rfl) (iblk0 V c 0 ⟨0, hn⟩) (iblk0 V c 1 ⟨0, hn⟩) (iblk0 V c 2 ⟨0, hn⟩) (iblk0 V c 3 ⟨0, hn⟩),
             sout0_A VS0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0 ⟨0, hn⟩).mpr rfl) (iblk0 V c 0 ⟨0, hn⟩) (iblk0 V c 1 ⟨0, hn⟩) (iblk0 V c 2 ⟨0, hn⟩) (iblk0 V c 3 ⟨0, hn⟩))
  | n + 1, hn => (out0_B VO0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => Nat.succ_ne_zero n ((hcond0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2,
             sout0_B VS0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => Nat.succ_ne_zero n ((hcond0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

theorem outsAt0_A (c : Dev nD) (t : Fin cfg0.N) (h0 : t.val = 0) :
    outsAt0 V c t.val t.isLt = (out0_A VO0 c (grid0.coords t) (ms0_0 t) (hs0_0 t) (ms0_1 t) (hs0_1 t) (ms0_2 t) (hs0_2 t) (ms0_3 t) (hs0_3 t) (ms0_4 t) (hs0_4 t) scM0 (Memref.isWhole_whole _) ((hcond0 t).mpr h0) (iblk0 V c 0 t) (iblk0 V c 1 t) (iblk0 V c 2 t) (iblk0 V c 3 t),
      sout0_A VS0 c (grid0.coords t) (ms0_0 t) (hs0_0 t) (ms0_1 t) (hs0_1 t) (ms0_2 t) (hs0_2 t) (ms0_3 t) (hs0_3 t) (ms0_4 t) (hs0_4 t) scM0 (Memref.isWhole_whole _) ((hcond0 t).mpr h0) (iblk0 V c 0 t) (iblk0 V c 1 t) (iblk0 V c 2 t) (iblk0 V c 3 t)) := by
  obtain ⟨n, hn⟩ := t
  cases n with
  | zero => exact rfl
  | succ n => exact absurd h0 (Nat.succ_ne_zero n)

theorem outsAt0_B (c : Dev nD) (t : Fin cfg0.N) (h0 : ¬t.val = 0) :
    outsAt0 V c t.val t.isLt = (out0_B VO0 c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0 t).mp h)) (iblk0 V c 0 t) (iblk0 V c 1 t) (iblk0 V c 2 t) (iblk0 V c 3 t) (outsAt0 V c (t.val - 1) (Nat.lt_of_le_of_lt (Nat.sub_le _ _) t.isLt)).2,
      sout0_B VS0 c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact absurd rfl h0
  | succ n => exact rfl

def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) : (dat0 V c).leavesExact 3 t = owns (c : Thread nD τ) (ms0_3 t) fullShare (iblk0 V c 3 t) := by
  unfold Dat.leavesExact; rw [liveAt0_3 t, after0_3]
theorem leaves0_4 (c : Dev nD) (t : Fin cfg0.N) : (dat0 V c).leavesExact 4 t = owns (c : Thread nD τ) (ms0_4 t) fullShare ((outsAt0 V c t.val t.isLt).1) := by
  unfold Dat.leavesExact; rw [liveAt0_4 t, after0_4]

set_option maxHeartbeats 4800000 in

-- The body at point t carries the invariant from t to t + 1.
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3, leaves0_4]
  by_cases h0 : t.val = 0
  · rw [outsAt0_A V c t h0]
    unfold out0_A sout0_A; (try dsimp only)
    rw [PhiS0_castSucc V c t, PhiS0_zero V c _ _ h0, PhiA0_eq]
    iintro ⟨⟨⟨HS0, Hrest⟩, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ ((hcond0 t).mpr h0) (iblk0 V c 0 t) (iblk0 V c 1 t) (iblk0 V c 2 t) (iblk0 V c 3 t)).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_A c _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A c _ _ _ _ _ _ _ _ _ _ _ _ _ _ _ _ _ _)
  · rw [outsAt0_B V c t h0]
    unfold out0_B sout0_B; (try dsimp only)
    rw [PhiS0_castSucc V c t, PhiS0_pos V c _ _ h0]
    iintro ⟨⟨⟨HS0, Hrest⟩, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ (fun h => h0 ((hcond0 t).mp h)) (iblk0 V c 0 t) (iblk0 V c 1 t) (iblk0 V c 2 t) (iblk0 V c 3 t) _).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_B c _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B c _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 625 := N_0; omega), PhiA0_eq]
  iintro ⟨⟨HS0, Hrest⟩, Hg⟩
  isplitl [HS0 Hrest]
  · isplitl [HS0]
    · iexists _; iexact HS0
    iexact Hrest
  iexact Hg
end

end Cert.KernelIdeal.Hand

end
-- ==== Proof.KernelIdealR1Runs.lean ====
/-
  Region 1 of the program (the 1-th propagation round): what its two control cases share. The body's one
  conditional asks whether the grid point is the first (there the accumulator is zeroed before anything is added);
  decided over the 625 points. No window is ever idle. The accumulator is the kernel's one scratch buffer.
-/
import proofs.«418351_j72971494359151_1_alg».proof.Proof.Gen.KernelIdeal.Launch
import proofs.«418351_j72971494359151_1_alg».proof.Proof.Gen.KernelIdeal.Skeleton
import proofs.«418351_j72971494359151_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's conditional: the grid point is the first one. -/
abbrev cond1 (i : grid1.Coords) : Prop := (Scalar.cmpi .ne (Scalar.extui (Scalar.cmpi .eq (BitVec.ofNat 32 (i 0).val) 0#32)) 0#32) = 1#1
/-- It holds exactly at point 0. -/
theorem hcond1 : ∀ t : Fin cfg1.N, cond1 (grid1.coords t) ↔ t.val = 0 :=
  (by decide +kernel : ∀ t : Fin grid1.N, cond1 (grid1.coords t) ↔ t.val = 0)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel

/-- Each window's current staging memref at point `t`, and its wholeness. -/
abbrev ms1_0 (t : Fin cfg1.N) : Memref sig .tc .vmem S1280x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1280x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1280x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S51200x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S51200x64 .f32 := win1_4.stage (cfg1.slots t 4)
abbrev hs1_4 (t : Fin cfg1.N) : (ms1_4 t).IsWhole := hstage1_4 ((cfg1.slots t 4).cast nbuf1_4)
/-- The accumulator: the kernel's scratch buffer, whole. -/
abbrev scM1 : Memref sig .tc .vmem S51200x64 .f32 := Memref.whole cc1_scratch0
abbrev VS1 : View sig .tc .vmem S51200x64 .f32 := scM1.view
/-- One staging buffer of the output window, through which its contents are stated. -/
abbrev VO1 : View sig .tc .vmem S51200x64 .f32 := (Memref.whole cc1_stg4_0 : Memref sig .tc .vmem S51200x64 .f32).view

/-- The class invariant with the accumulator split off: the accumulator owned at some contents, every other scoped
    buffer that is no staging buffer of this call at some contents, the generator register at some state. -/
theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [scM1, owns_whole]
  rfl

end Cert.KernelIdeal.Hand

end
-- ==== Proof.KernelIdealR1Body.lean ====
import proofs.«418351_j72971494359151_1_alg».proof.Proof.KernelIdealR0Body
import proofs.«418351_j72971494359151_1_alg».proof.Proof.KernelIdealR1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- Region 1 runs the same body function as region 0 (the two definitions are the same text), so the body's run and the pieces it leaves are region 0's, read through this region's buffers.

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
end

section
variable (V : (c : Dev nD) → (b : Ref sig .tc) → Buf (Elt F) ((c : Thread nD τ).loc b))

def outsAt1 (c : Dev nD) : (n : ℕ) → n < cfg1.N → Vec F S51200x64 .f32 × Vec F S51200x64 .f32
  | 0, hn => (out0_A VO1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1 ⟨0, hn⟩).mpr rfl) (iblk1 V c 0 ⟨0, hn⟩) (iblk1 V c 1 ⟨0, hn⟩) (iblk1 V c 2 ⟨0, hn⟩) (iblk1 V c 3 ⟨0, hn⟩),
             sout0_A VS1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1 ⟨0, hn⟩).mpr rfl) (iblk1 V c 0 ⟨0, hn⟩) (iblk1 V c 1 ⟨0, hn⟩) (iblk1 V c 2 ⟨0, hn⟩) (iblk1 V c 3 ⟨0, hn⟩))
  | n + 1, hn => (out0_B VO1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => Nat.succ_ne_zero n ((hcond1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
             sout0_B VS1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => Nat.succ_ne_zero n ((hcond1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val = 0) :
    outsAt1 V c t.val t.isLt = (out0_A VO1 c (grid1.coords t) (ms1_0 t) (hs1_0 t) (ms1_1 t) (hs1_1 t) (ms1_2 t) (hs1_2 t) (ms1_3 t) (hs1_3 t) (ms1_4 t) (hs1_4 t) scM1 (Memref.isWhole_whole _) ((hcond1 t).mpr h0) (iblk1 V c 0 t) (iblk1 V c 1 t) (iblk1 V c 2 t) (iblk1 V c 3 t),
      sout0_A VS1 c (grid1.coords t) (ms1_0 t) (hs1_0 t) (ms1_1 t) (hs1_1 t) (ms1_2 t) (hs1_2 t) (ms1_3 t) (hs1_3 t) (ms1_4 t) (hs1_4 t) scM1 (Memref.isWhole_whole _) ((hcond1 t).mpr h0) (iblk1 V c 0 t) (iblk1 V c 1 t) (iblk1 V c 2 t) (iblk1 V c 3 t)) := by
  obtain ⟨n, hn⟩ := t
  cases n with
  | zero => exact rfl
  | succ n => exact absurd h0 (Nat.succ_ne_zero n)

theorem outsAt1_B (c : Dev nD) (t : Fin cfg1.N) (h0 : ¬t.val = 0) :
    outsAt1 V c t.val t.isLt = (out0_B VO1 c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1 t).mp h)) (iblk1 V c 0 t) (iblk1 V c 1 t) (iblk1 V c 2 t) (iblk1 V c 3 t) (outsAt1 V c (t.val - 1) (Nat.lt_of_le_of_lt (Nat.sub_le _ _) t.isLt)).2,
      sout0_B VS1 c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact absurd rfl h0
  | succ n => exact rfl

def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]
theorem leaves1_4 (c : Dev nD) (t : Fin cfg1.N) : (dat1 V c).leavesExact 4 t = owns (c : Thread nD τ) (ms1_4 t) fullShare ((outsAt1 V c t.val t.isLt).1) := by
  unfold Dat.leavesExact; rw [liveAt1_4 t, after1_4]

set_option maxHeartbeats 4800000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4]
  by_cases h0 : t.val = 0
  · rw [outsAt1_A V c t h0]
    unfold out0_A sout0_A; (try dsimp only)
    rw [PhiS1_castSucc V c t, PhiS1_zero V c _ _ h0, PhiA1_eq]
    iintro ⟨⟨⟨HS0, Hrest⟩, Hg⟩, Ho, ⟨%d0, H0⟩, ⟨%d1, H1⟩, ⟨%d2, H2⟩, ⟨%d3, H3⟩, ⟨%d4, H4⟩⟩
    iapply ((kernelRun0_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1 t).mpr h0) (iblk1 V c 0 t) (iblk1 V c 1 t) (iblk1 V c 2 t) (iblk1 V c 3 t)).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_A c _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A c _ _ _ _ _ _ _ _ _ _ _ _ _ _ _ _ _ _)
  · rw [outsAt1_B V c t h0]
    unfold out0_B sout0_B; (try dsimp only)
    rw [PhiS1_castSucc V c t, PhiS1_pos V c _ _ h0]
    iintro ⟨⟨⟨HS0, Hrest⟩, Hg⟩, Ho, ⟨%d0, H0⟩, ⟨%d1, H1⟩, ⟨%d2, H2⟩, ⟨%d3, H3⟩, ⟨%d4, H4⟩⟩
    iapply ((kernelRun0_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1 t).mp h)) (iblk1 V c 0 t) (iblk1 V c 1 t) (iblk1 V c 2 t) (iblk1 V c 3 t) _).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_B c _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B c _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 625 := N_1; omega), PhiA1_eq]
  iintro ⟨⟨HS0, Hrest⟩, Hg⟩
  isplitl [HS0 Hrest]
  · isplitl [HS0]
    · iexists _; iexact HS0
    iexact Hrest
  iexact Hg
end

end Cert.KernelIdeal.Hand

end
-- ==== Proof.KernelIdealR2Runs.lean ====
/-
  Region 2 of the program (the 2-th propagation round): what its two control cases share. The body's one
  conditional asks whether the grid point is the first (there the accumulator is zeroed before anything is added);
  decided over the 625 points. No window is ever idle. The accumulator is the kernel's one scratch buffer.
-/
import proofs.«418351_j72971494359151_1_alg».proof.Proof.Gen.KernelIdeal.Launch
import proofs.«418351_j72971494359151_1_alg».proof.Proof.Gen.KernelIdeal.Skeleton
import proofs.«418351_j72971494359151_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's conditional: the grid point is the first one. -/
abbrev cond2 (i : grid2.Coords) : Prop := (Scalar.cmpi .ne (Scalar.extui (Scalar.cmpi .eq (BitVec.ofNat 32 (i 0).val) 0#32)) 0#32) = 1#1
/-- It holds exactly at point 0. -/
theorem hcond2 : ∀ t : Fin cfg2.N, cond2 (grid2.coords t) ↔ t.val = 0 :=
  (by decide +kernel : ∀ t : Fin grid2.N, cond2 (grid2.coords t) ↔ t.val = 0)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel

/-- Each window's current staging memref at point `t`, and its wholeness. -/
abbrev ms2_0 (t : Fin cfg2.N) : Memref sig .tc .vmem S1280x1 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1280x1 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1280x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S51200x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S51200x64 .f32 := win2_4.stage (cfg2.slots t 4)
abbrev hs2_4 (t : Fin cfg2.N) : (ms2_4 t).IsWhole := hstage2_4 ((cfg2.slots t 4).cast nbuf2_4)
/-- The accumulator: the kernel's scratch buffer, whole. -/
abbrev scM2 : Memref sig .tc .vmem S51200x64 .f32 := Memref.whole cc2_scratch0
abbrev VS2 : View sig .tc .vmem S51200x64 .f32 := scM2.view
/-- One staging buffer of the output window, through which its contents are stated. -/
abbrev VO2 : View sig .tc .vmem S51200x64 .f32 := (Memref.whole cc2_stg4_0 : Memref sig .tc .vmem S51200x64 .f32).view

/-- The class invariant with the accumulator split off: the accumulator owned at some contents, every other scoped
    buffer that is no staging buffer of this call at some contents, the generator register at some state. -/
theorem PhiA2_eq (c : Dev nD) :
    (Pipeline.ΦA spec2 c : sProp 𝕄)
      = iprop(iprop((∃ d, owns (c : Thread nD τ) scM2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA
  rw [Pipeline.scopedRest_split_of_list spec2 c [cc2_scratch0] (by decide) (by decide)]
  simp only [scM2, owns_whole]
  rfl

end Cert.KernelIdeal.Hand

end
-- ==== Proof.KernelIdealR2Body.lean ====
import proofs.«418351_j72971494359151_1_alg».proof.Proof.KernelIdealR0Body
import proofs.«418351_j72971494359151_1_alg».proof.Proof.KernelIdealR2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- Region 2 runs the same body function as region 0 (the two definitions are the same text), so the body's run and the pieces it leaves are region 0's, read through this region's buffers.

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
end

section
variable (V : (c : Dev nD) → (b : Ref sig .tc) → Buf (Elt F) ((c : Thread nD τ).loc b))

def outsAt2 (c : Dev nD) : (n : ℕ) → n < cfg2.N → Vec F S51200x64 .f32 × Vec F S51200x64 .f32
  | 0, hn => (out0_A VO2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2 (Memref.isWhole_whole _) ((hcond2 ⟨0, hn⟩).mpr rfl) (iblk2 V c 0 ⟨0, hn⟩) (iblk2 V c 1 ⟨0, hn⟩) (iblk2 V c 2 ⟨0, hn⟩) (iblk2 V c 3 ⟨0, hn⟩),
             sout0_A VS2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2 (Memref.isWhole_whole _) ((hcond2 ⟨0, hn⟩).mpr rfl) (iblk2 V c 0 ⟨0, hn⟩) (iblk2 V c 1 ⟨0, hn⟩) (iblk2 V c 2 ⟨0, hn⟩) (iblk2 V c 3 ⟨0, hn⟩))
  | n + 1, hn => (out0_B VO2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => Nat.succ_ne_zero n ((hcond2 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2,
             sout0_B VS2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => Nat.succ_ne_zero n ((hcond2 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)

theorem outsAt2_A (c : Dev nD) (t : Fin cfg2.N) (h0 : t.val = 0) :
    outsAt2 V c t.val t.isLt = (out0_A VO2 c (grid2.coords t) (ms2_0 t) (hs2_0 t) (ms2_1 t) (hs2_1 t) (ms2_2 t) (hs2_2 t) (ms2_3 t) (hs2_3 t) (ms2_4 t) (hs2_4 t) scM2 (Memref.isWhole_whole _) ((hcond2 t).mpr h0) (iblk2 V c 0 t) (iblk2 V c 1 t) (iblk2 V c 2 t) (iblk2 V c 3 t),
      sout0_A VS2 c (grid2.coords t) (ms2_0 t) (hs2_0 t) (ms2_1 t) (hs2_1 t) (ms2_2 t) (hs2_2 t) (ms2_3 t) (hs2_3 t) (ms2_4 t) (hs2_4 t) scM2 (Memref.isWhole_whole _) ((hcond2 t).mpr h0) (iblk2 V c 0 t) (iblk2 V c 1 t) (iblk2 V c 2 t) (iblk2 V c 3 t)) := by
  obtain ⟨n, hn⟩ := t
  cases n with
  | zero => exact rfl
  | succ n => exact absurd h0 (Nat.succ_ne_zero n)

theorem outsAt2_B (c : Dev nD) (t : Fin cfg2.N) (h0 : ¬t.val = 0) :
    outsAt2 V c t.val t.isLt = (out0_B VO2 c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2 t).mp h)) (iblk2 V c 0 t) (iblk2 V c 1 t) (iblk2 V c 2 t) (iblk2 V c 3 t) (outsAt2 V c (t.val - 1) (Nat.lt_of_le_of_lt (Nat.sub_le _ _) t.isLt)).2,
      sout0_B VS2 c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2 t).mp h)) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact absurd rfl h0
  | succ n => exact rfl

def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

theorem leaves2_0 (c : Dev nD) (t : Fin cfg2.N) : (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) : (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) : (dat2 V c).leavesExact 2 t = owns (c : Thread nD τ) (ms2_2 t) fullShare (iblk2 V c 2 t) := by
  unfold Dat.leavesExact; rw [liveAt2_2 t, after2_2]
theorem leaves2_3 (c : Dev nD) (t : Fin cfg2.N) : (dat2 V c).leavesExact 3 t = owns (c : Thread nD τ) (ms2_3 t) fullShare (iblk2 V c 3 t) := by
  unfold Dat.leavesExact; rw [liveAt2_3 t, after2_3]
theorem leaves2_4 (c : Dev nD) (t : Fin cfg2.N) : (dat2 V c).leavesExact 4 t = owns (c : Thread nD τ) (ms2_4 t) fullShare ((outsAt2 V c t.val t.isLt).1) := by
  unfold Dat.leavesExact; rw [liveAt2_4 t, after2_4]

set_option maxHeartbeats 4800000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4]
  by_cases h0 : t.val = 0
  · rw [outsAt2_A V c t h0]
    unfold out0_A sout0_A; (try dsimp only)
    rw [PhiS2_castSucc V c t, PhiS2_zero V c _ _ h0, PhiA2_eq]
    iintro ⟨⟨⟨HS0, Hrest⟩, Hg⟩, Ho, ⟨%d0, H0⟩, ⟨%d1, H1⟩, ⟨%d2, H2⟩, ⟨%d3, H3⟩, ⟨%d4, H4⟩⟩
    iapply ((kernelRun0_A c (grid2.coords t) (ms2_0 t) (hs2_0 t) (ms2_1 t) (hs2_1 t) (ms2_2 t) (hs2_2 t) (ms2_3 t) (hs2_3 t) (ms2_4 t) (hs2_4 t) scM2 (Memref.isWhole_whole _) ((hcond2 t).mpr h0) (iblk2 V c 0 t) (iblk2 V c 1 t) (iblk2 V c 2 t) (iblk2 V c 3 t)).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_A c _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A c _ _ _ _ _ _ _ _ _ _ _ _ _ _ _ _ _ _)
  · rw [outsAt2_B V c t h0]
    unfold out0_B sout0_B; (try dsimp only)
    rw [PhiS2_castSucc V c t, PhiS2_pos V c _ _ h0]
    iintro ⟨⟨⟨HS0, Hrest⟩, Hg⟩, Ho, ⟨%d0, H0⟩, ⟨%d1, H1⟩, ⟨%d2, H2⟩, ⟨%d3, H3⟩, ⟨%d4, H4⟩⟩
    iapply ((kernelRun0_B c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2 t).mp h)) (iblk2 V c 0 t) (iblk2 V c 1 t) (iblk2 V c 2 t) (iblk2 V c 3 t) _).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_B c _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B c _ _ _ _ _ _ _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 625 := N_2; omega), PhiA2_eq]
  iintro ⟨⟨HS0, Hrest⟩, Hg⟩
  isplitl [HS0 Hrest]
  · isplitl [HS0]
    · iexists _; iexact HS0
    iexact Hrest
  iexact Hg
end

end Cert.KernelIdeal.Hand

end
-- ==== Proof.KernelIdealRxRunAll.lean ====
/-
  The whole run of the program: six stretches of host operations, the three propagation rounds' regions, and the last
  stretch of host operations, composed in order. The core's buffer contents at each boundary are a fold from the launch
  memory: a host stretch applies its operations; a region leaves its arrays at what the pipeline's write-backs leave
  and every other buffer as it found it. Every weakly fair execution terminates, nothing faulting, and every final
  memory holds every unscoped buffer at the fold's last stage; read at the two argument arrays, that is the frame claim.
-/
import proofs.«418351_j72971494359151_1_alg».proof.Proof.KernelIdealR0Body
import proofs.«418351_j72971494359151_1_alg».proof.Proof.KernelIdealR1Body
import proofs.«418351_j72971494359151_1_alg».proof.Proof.KernelIdealR2Body
import proofs.«418351_j72971494359151_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s unscoped buffers when the first region is entered: the launch memory after the six host stretches. -/
abbrev W6 : Dev nD → Valuation τ sig (Elt F) := fun c => Gen.V6 m c
abbrev U6 : (c : Dev nD) → (b : Ref sig .tc) → Buf (Elt F) ((c : Thread nD τ).loc b) := fun c b => W6 m c b

/-- At round 0's exit: its arrays at what the pipeline leaves, every other buffer as entered. -/
def W7 (c : Dev nD) : Valuation τ sig (Elt F) :=
  Pipeline.withArrays spec0 c (W6 m c) fun w => (dat0 (U6 m) c).arrAt w cfg0.N
theorem W7_arr (c : Dev nD) (w : Fin cfg0.W) :
    W7 m c (Proc.devRef .tc (Pipeline.arrRef spec0 w)) = (dat0 (U6 m) c).arrAt w cfg0.N := by
  unfold W7; exact Pipeline.withArrays_arr spec0 launch0.win.arr_inj c _ _ w
theorem W7_of_ne (c : Dev nD) (b : Ref sig .tc) (hb : ∀ w, Pipeline.arrRef spec0 w ≠ b) :
    W7 m c (Proc.devRef .tc b) = W6 m c (Proc.devRef .tc b) := by
  unfold W7; exact Pipeline.withArrays_of_ne spec0 c _ _ b hb
abbrev U7 : (c : Dev nD) → (b : Ref sig .tc) → Buf (Elt F) ((c : Thread nD τ).loc b) := fun c b => W7 m c b
theorem hF0 (c : Dev nD) (w : Fin cfg0.W) : (dat0 (U6 m) c).arrAt w cfg0.N = U7 m c (Pipeline.arrRef spec0 w) :=
  (W7_arr m c w).symm
theorem hrest0 (c : Dev nD) : ∀ b, b ∉ Finset.univ.image (Pipeline.arrRef spec0) → U7 m c b = U6 m c b :=
  fun b hb => W7_of_ne m c b fun w e => hb (Finset.mem_image.mpr ⟨w, Finset.mem_univ _, e⟩)

/-- At round 1's exit: its arrays at what the pipeline leaves, every other buffer as entered. -/
def W8 (c : Dev nD) : Valuation τ sig (Elt F) :=
  Pipeline.withArrays spec1 c (W7 m c) fun w => (dat1 (U7 m) c).arrAt w cfg1.N
theorem W8_arr (c : Dev nD) (w : Fin cfg1.W) :
    W8 m c (Proc.devRef .tc (Pipeline.arrRef spec1 w)) = (dat1 (U7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
abbrev U8 : (c : Dev nD) → (b : Ref sig .tc) → Buf (Elt F) ((c : Thread nD τ).loc b) := fun c b => W8 m c b
theorem hF1 (c : Dev nD) (w : Fin cfg1.W) : (dat1 (U7 m) c).arrAt w cfg1.N = U8 m c (Pipeline.arrRef spec1 w) :=
  (W8_arr m c w).symm
theorem hrest1 (c : Dev nD) : ∀ b, b ∉ Finset.univ.image (Pipeline.arrRef spec1) → U8 m c b = U7 m c b :=
  fun b hb => W8_of_ne m c b fun w e => hb (Finset.mem_image.mpr ⟨w, Finset.mem_univ _, e⟩)

/-- At round 2's exit: its arrays at what the pipeline leaves, every other buffer as entered. -/
def W9 (c : Dev nD) : Valuation τ sig (Elt F) :=
  Pipeline.withArrays spec2 c (W8 m c) fun w => (dat2 (U8 m) c).arrAt w cfg2.N
theorem W9_arr (c : Dev nD) (w : Fin cfg2.W) :
    W9 m c (Proc.devRef .tc (Pipeline.arrRef spec2 w)) = (dat2 (U8 m) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb
abbrev U9 : (c : Dev nD) → (b : Ref sig .tc) → Buf (Elt F) ((c : Thread nD τ).loc b) := fun c b => W9 m c b
theorem hF2 (c : Dev nD) (w : Fin cfg2.W) : (dat2 (U8 m) c).arrAt w cfg2.N = U9 m c (Pipeline.arrRef spec2 w) :=
  (W9_arr m c w).symm
theorem hrest2 (c : Dev nD) : ∀ b, b ∉ Finset.univ.image (Pipeline.arrRef spec2) → U9 m c b = U8 m c b :=
  fun b hb => W9_of_ne m c b fun w e => hb (Finset.mem_image.mpr ⟨w, Finset.mem_univ _, e⟩)

/-- After the last host stretch. -/
abbrev W10 : Dev nD → Valuation τ sig (Elt F) := fun c => StableHlo.after hostOps3 (W9 m c)

/-! ## The arguments end as launched -/

theorem W10_of (c : Dev nD) (r : Ref sig .tc) (h : r ∉ Gen.hostOps3_W) : W10 m c r = W9 m c r :=
  StableHlo.after_of_writes_sub hostOps3 _ Gen.hostOps3_writes h

theorem W10_main_arg0 (c : Dev nD) : W10 m c main_arg0 = m ((c : Thread nD τ).loc main_arg0) :=
  (W10_of m c main_arg0 (by decide)).trans <| (W9_of_ne m c main_arg0 (by decide)).trans <| (W8_of_ne m c main_arg0 (by decide)).trans <|
    (W7_of_ne m c main_arg0 (by decide)).trans <| (Gen.V6_of m c main_arg0 (by decide)).trans <| (Gen.V5_of m c main_arg0 (by decide)).trans <|
    (Gen.V4_of m c main_arg0 (by decide)).trans <| (Gen.V3_of m c main_arg0 (by decide)).trans <| (Gen.V2_of m c main_arg0 (by decide)).trans <|
    (Gen.V1_of m c main_arg0 (by decide)).trans rfl
theorem W10_main_arg1 (c : Dev nD) : W10 m c main_arg1 = m ((c : Thread nD τ).loc main_arg1) :=
  (W10_of m c main_arg1 (by decide)).trans <| (W9_of_ne m c main_arg1 (by decide)).trans <| (W8_of_ne m c main_arg1 (by decide)).trans <|
    (W7_of_ne m c main_arg1 (by decide)).trans <| (Gen.V6_of m c main_arg1 (by decide)).trans <| (Gen.V5_of m c main_arg1 (by decide)).trans <|
    (Gen.V4_of m c main_arg1 (by decide)).trans <| (Gen.V3_of m c main_arg1 (by decide)).trans <| (Gen.V2_of m c main_arg1 (by decide)).trans <|
    (Gen.V1_of m c main_arg1 (by decide)).trans rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (U6 m) c
  | ⟨1, _⟩ => fun c => dat1 (U7 m) c
  | ⟨2, _⟩ => fun c => dat2 (U8 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m c) ∗ ∃ r, prngReg c r)

/-! ## The regions as segments -/

set_option backward.isDefEq.respectTransparency.types false in
/-- Round 0's region over the thread state: entered from every unscoped buffer at its entry contents, left with the
    region's arrays at what the pipeline leaves; the generator register goes into the invariant and comes back;
    nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U6 m) c).loose
  hwaits := Pipeline.hwaits_of_owed_zero _ _ _ _ L lv 0 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec0 c (U6 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 0).pre c (fun _ => fullShare) (adm 0).1 ∗ Pipeline.scopedRest (Ix := Unit) (Name := ℕ) (U := UR sig nD τ) (Lvl := ℕ) (Val := Elt F) spec0 c) : sProp 𝕄)
        ⊢ Pipeline.ΦA spec0 c := by
      unfold Pipeline.ΦA
      iintro ⟨Hp, -, Hr⟩
      isplitl [Hr]; · iexact Hr
      iexact Hp
    exact h1.trans (hin0 (U6 m) c)
  hout c := by
    rw [Pipeline.ownSems0_none]
    have h1 : (Pipeline.ΦA spec0 c : sProp 𝕄)
        ⊢ iprop((∃ r, prngReg c r) ∗ emp ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (U6 m) c).trans h1
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U6 m c) (U7 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Round 1's region over the thread state: entered from every unscoped buffer at its entry contents, left with the
    region's arrays at what the pipeline leaves; the generator register goes into the invariant and comes back;
    nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (U7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 1).pre c (fun _ => fullShare) (adm 1).1 ∗ Pipeline.scopedRest (Ix := Unit) (Name := ℕ) (U := UR sig nD τ) (Lvl := ℕ) (Val := Elt F) spec1 c) : sProp 𝕄)
        ⊢ Pipeline.ΦA spec1 c := by
      unfold Pipeline.ΦA
      iintro ⟨Hp, -, Hr⟩
      isplitl [Hr]; · iexact Hr
      iexact Hp
    exact h1.trans (hin1 (U7 m) c)
  hout c := by
    rw [Pipeline.ownSems0_none]
    have h1 : (Pipeline.ΦA spec1 c : sProp 𝕄)
        ⊢ iprop((∃ r, prngReg c r) ∗ emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (U7 m) c).trans h1
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U7 m c) (U8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Round 2's region over the thread state: entered from every unscoped buffer at its entry contents, left with the
    region's arrays at what the pipeline leaves; the generator register goes into the invariant and comes back;
    nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U8 m) c).loose
  hwaits := Pipeline.hwaits_of_owed_zero _ _ _ _ L lv 2 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec2 c (U8 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 2).pre c (fun _ => fullShare) (adm 2).1 ∗ Pipeline.scopedRest (Ix := Unit) (Name := ℕ) (U := UR sig nD τ) (Lvl := ℕ) (Val := Elt F) spec2 c) : sProp 𝕄)
        ⊢ Pipeline.ΦA spec2 c := by
      unfold Pipeline.ΦA
      iintro ⟨Hp, -, Hr⟩
      isplitl [Hr]; · iexact Hr
      iexact Hp
    exact h1.trans (hin2 (U8 m) c)
  hout c := by
    rw [Pipeline.ownSems0_none]
    have h1 : (Pipeline.ΦA spec2 c : sProp 𝕄)
        ⊢ iprop((∃ r, prngReg c r) ∗ emp ∗ Pipeline.scopedRest (Ix := Unit) (Name := ℕ) (U := UR sig nD τ) (Lvl := ℕ) (Val := Elt F) spec2 c) := by
      unfold Pipeline.ΦA
      iintro ⟨Hr, Hp⟩
      isplitl [Hp]; · iexact Hp
      isplitr; · iempintro
      iexact Hr
    exact (hout2 (U8 m) c).trans h1
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U8 m c) (U9 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub Gen.hostOps0_fresh (Gen.V0 m)),
    .host (hseg hostOps0_1 hostOps0_1_sub Gen.hostOps0_1_fresh (Gen.V1 m)),
    .host (hseg hostOps0_2 hostOps0_2_sub Gen.hostOps0_2_fresh (Gen.V2 m)),
    .host (hseg hostOps0_3 hostOps0_3_sub Gen.hostOps0_3_fresh (Gen.V3 m)),
    .host (hseg hostOps0_4 hostOps0_4_sub Gen.hostOps0_4_fresh (Gen.V4 m)),
    .host (hseg hostOps0_5 hostOps0_5_sub Gen.hostOps0_5_fresh (Gen.V5 m)),
    .region (reg0 m),
    .region (reg1 m),
    .region (reg2 m),
    .host (hseg hostOps3 hostOps3_sub Gen.hostOps3_fresh (W9 m)) ]

theorem main_run (c : Dev nD) : main (F := F) c = Pipeline.Seg.run (segs m) := (main_chain c).trans (by chain_rfl)

variable (ρ : Dev nD → PrngReg)

set_option backward.isDefEq.respectTransparency.types false in
/-- THE RUN: from any memory with zero counters every weakly fair execution of @main terminates, nothing faulting,
    and every final memory holds every unscoped buffer of every core at the fold's last stage. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (W10 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W10 m c) ∗ R c) : sProp 𝕄) ⊢ _
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W10_main_arg0 m c), (h c _ (mem_uc main_arg1 (by decide))).trans (W10_main_arg1 m c)⟩) (run_all m ρ)

end Cert.KernelIdeal.Hand

end
-- ==== Proof.Spec.lean ====
import Idealize.ShloMosaic.PureOps.Ideal
import Idealize.ShloMosaic.Lib.ValueIdx

noncomputable section

namespace Cert.Spec

open Idealize.ShloMosaic

-- 1 if the word `a` is the number `n`, else 0.
def oh (a : BitVec 32) (n : ℕ) : EReal := if a = BitVec.ofNat 32 n then 1 else 0

-- Row `a` of the table, written as a sum over all rows against `oh a`.
def gath (x : Fin 51200 → Fin 64 → EReal) (a : BitVec 32) (d : Fin 64) : EReal :=
  ∑ n : Fin 51200, oh a n.val * x n d

-- What a block of 1280 edges adds to entry (n, d): ∑ₑ oh (dst e) n · (gath x (src e) d · w e).
def contrib (src dst : Fin 1280 → BitVec 32) (w : Fin 1280 → EReal) (x : Fin 51200 → Fin 64 → EReal)
    (n : Fin 51200) (d : Fin 64) : EReal :=
  ∑ e : Fin 1280, oh (dst e) n.val * (gath x (src e) d * w e)

-- Slot `e` of block `t` is edge 1280·t + e.
def edgeIx (t : ℕ) (e : Fin 1280) : Fin 800000 := ⟨(1280 * t + e.val) % 800000, Nat.mod_lt _ (by decide)⟩

def blkOf {α : Type} (f : Fin 800000 → α) (t : ℕ) : Fin 1280 → α := fun e => f (edgeIx t e)

-- Partial sums of the blocks' contributions, in block order.
def accAt (src dst : Fin 800000 → BitVec 32) (w : Fin 800000 → EReal) (x : Fin 51200 → Fin 64 → EReal) :
    ℕ → Fin 51200 → Fin 64 → EReal
  | 0 => contrib (blkOf src 0) (blkOf dst 0) (blkOf w 0) x
  | t + 1 => fun n d => accAt src dst w x t n d + contrib (blkOf src (t + 1)) (blkOf dst (t + 1)) (blkOf w (t + 1)) x n d

-- One round on the padded table: all 625 blocks.
def propPad (src dst : Fin 800000 → BitVec 32) (w : Fin 800000 → EReal) (x : Fin 51200 → Fin 64 → EReal) :
    Fin 51200 → Fin 64 → EReal := accAt src dst w x 624

-- The table extended by zero rows to 51200 rows.
def padX (x : Fin 50000 → Fin 64 → EReal) : Fin 51200 → Fin 64 → EReal :=
  fun n d => if h : n.val < 50000 then x ⟨n.val, h⟩ d else 0

-- One round as the reference sums it: over the edges into row n, (source's row) · weight.
def propRef (src dst : Fin 800000 → BitVec 32) (w : Fin 800000 → EReal) (x : Fin 50000 → Fin 64 → EReal) :
    Fin 50000 → Fin 64 → EReal :=
  fun n d => ∑ e : Fin 800000, if dst e = BitVec.ofNat 32 n.val then
    (if h : (src e).toNat < 50000 then x ⟨(src e).toNat, h⟩ d else 0) * w e else 0

end Cert.Spec

end
-- ==== Proof.KernelIdealR0Terms.lean ====
import proofs.«418351_j72971494359151_1_alg».proof.Proof.Gen.KernelIdeal.Skeleton
import proofs.«418351_j72971494359151_1_alg».proof.Proof.Spec
import Idealize.ShloMosaic.Lib.Pipeline.FrameBody
import Idealize.ShloMosaic.Lib.ValueIdx

noncomputable section

namespace Cert.KernelIdeal.Hand

open Idealize.ShloMosaic Idealize.SL.Sem
open Cert.KernelIdeal Cert.KernelIdeal.Gen

variable {F : FTy → Type} [FloatOps F]

abbrev rs0 : Rect S51200x64 := Rect.unit (s := S51200x64) ![0, 0] S2048x64.size inb_S51200x64_S2048x64_0_0
abbrev rs1 : Rect S51200x64 := Rect.unit (s := S51200x64) ![2048, 0] S2048x64.size inb_S51200x64_S2048x64_2048_0
abbrev rs2 : Rect S51200x64 := Rect.unit (s := S51200x64) ![4096, 0] S2048x64.size inb_S51200x64_S2048x64_4096_0
abbrev rs3 : Rect S51200x64 := Rect.unit (s := S51200x64) ![6144, 0] S2048x64.size inb_S51200x64_S2048x64_6144_0
abbrev rs4 : Rect S51200x64 := Rect.unit (s := S51200x64) ![8192, 0] S2048x64.size inb_S51200x64_S2048x64_8192_0
abbrev rs5 : Rect S51200x64 := Rect.unit (s := S51200x64) ![10240, 0] S2048x64.size inb_S51200x64_S2048x64_10240_0
abbrev rs6 : Rect S51200x64 := Rect.unit (s := S51200x64) ![12288, 0] S2048x64.size inb_S51200x64_S2048x64_12288_0
abbrev rs7 : Rect S51200x64 := Rect.unit (s := S51200x64) ![14336, 0] S2048x64.size inb_S51200x64_S2048x64_14336_0
abbrev rs8 : Rect S51200x64 := Rect.unit (s := S51200x64) ![16384, 0] S2048x64.size inb_S51200x64_S2048x64_16384_0
abbrev rs9 : Rect S51200x64 := Rect.unit (s := S51200x64) ![18432, 0] S2048x64.size inb_S51200x64_S2048x64_18432_0
abbrev rs10 : Rect S51200x64 := Rect.unit (s := S51200x64) ![20480, 0] S2048x64.size inb_S51200x64_S2048x64_20480_0
abbrev rs11 : Rect S51200x64 := Rect.unit (s := S51200x64) ![22528, 0] S2048x64.size inb_S51200x64_S2048x64_22528_0
abbrev rs12 : Rect S51200x64 := Rect.unit (s := S51200x64) ![24576, 0] S2048x64.size inb_S51200x64_S2048x64_24576_0
abbrev rs13 : Rect S51200x64 := Rect.unit (s := S51200x64) ![26624, 0] S2048x64.size inb_S51200x64_S2048x64_26624_0
abbrev rs14 : Rect S51200x64 := Rect.unit (s := S51200x64) ![28672, 0] S2048x64.size inb_S51200x64_S2048x64_28672_0
abbrev rs15 : Rect S51200x64 := Rect.unit (s := S51200x64) ![30720, 0] S2048x64.size inb_S51200x64_S2048x64_30720_0
abbrev rs16 : Rect S51200x64 := Rect.unit (s := S51200x64) ![32768, 0] S2048x64.size inb_S51200x64_S2048x64_32768_0
abbrev rs17 : Rect S51200x64 := Rect.unit (s := S51200x64) ![34816, 0] S2048x64.size inb_S51200x64_S2048x64_34816_0
abbrev rs18 : Rect S51200x64 := Rect.unit (s := S51200x64) ![36864, 0] S2048x64.size inb_S51200x64_S2048x64_36864_0
abbrev rs19 : Rect S51200x64 := Rect.unit (s := S51200x64) ![38912, 0] S2048x64.size inb_S51200x64_S2048x64_38912_0
abbrev rs20 : Rect S51200x64 := Rect.unit (s := S51200x64) ![40960, 0] S2048x64.size inb_S51200x64_S2048x64_40960_0
abbrev rs21 : Rect S51200x64 := Rect.unit (s := S51200x64) ![43008, 0] S2048x64.size inb_S51200x64_S2048x64_43008_0
abbrev rs22 : Rect S51200x64 := Rect.unit (s := S51200x64) ![45056, 0] S2048x64.size inb_S51200x64_S2048x64_45056_0
abbrev rs23 : Rect S51200x64 := Rect.unit (s := S51200x64) ![47104, 0] S2048x64.size inb_S51200x64_S2048x64_47104_0
abbrev rs24 : Rect S51200x64 := Rect.unit (s := S51200x64) ![49152, 0] S2048x64.size inb_S51200x64_S2048x64_49152_0

abbrev rE : Rect S1280x1 := Rect.unit (s := S1280x1) ![0, 0] S1280x1.size inb_S1280x1_S1280x1_0_0

variable (X0 : Vec F S1280x1 .i32) (X2 : Vec F S1280x1 .f32) (X3 : Vec F S51200x64 .f32)

-- The gathered block after successive groups of table slices; `msg` is the whole gather scaled by the weights.
def g5 : FVec F S1280x64 .f32 := k0_pay5 X0 (View.ld X3 rs0) (View.ld X3 rs1)
def g6 : FVec F S1280x64 .f32 := k0_pay6 (k0_pay2 X0) (g5 X0 X3) (iota .tc S1x2048 32 [1] iota_S1x2048_d1_w32) (View.ld X3 rs2) (View.ld X3 rs3) (View.ld X3 rs4)
def g8 : FVec F S1280x64 .f32 := k0_pay8 (k0_pay2 X0) (g6 X0 X3) k0_pay7 (View.ld X3 rs5) (View.ld X3 rs6) (View.ld X3 rs7)
def g11 : FVec F S1280x64 .f32 := k0_pay11 (k0_pay2 X0) (g8 X0 X3) (k0_pay9 (k0_pay2 X0)) k0_pay10 (View.ld X3 rs8) (View.ld X3 rs9) (View.ld X3 rs10)
def g13 : FVec F S1280x64 .f32 := k0_pay13 (k0_pay2 X0) (g11 X0 X3) (k0_pay12 (k0_pay2 X0)) (View.ld X3 rs11) (View.ld X3 rs12) (View.ld X3 rs13)
def g15 : FVec F S1280x64 .f32 := k0_pay15 (k0_pay2 X0) (g13 X0 X3) (k0_pay14 (k0_pay2 X0)) (View.ld X3 rs14) (View.ld X3 rs15) (View.ld X3 rs16)
def g18 : FVec F S1280x64 .f32 := k0_pay18 (k0_pay2 X0) (g15 X0 X3) (k0_pay16 (k0_pay2 X0)) (k0_pay17 (View.ld X3 rs17)) (View.ld X3 rs18) (View.ld X3 rs19) (View.ld X3 rs20)
def g19 : FVec F S1280x64 .f32 := k0_pay19 (k0_pay2 X0) (g18 X0 X3) (View.ld X3 rs21) (View.ld X3 rs22) (View.ld X3 rs23)

def msg : FVec F S1280x64 .bf16 := k0_pay21 (k0_pay2 X0) (k0_pay4 X2) (g19 X0 X3) (iota .tc S1x2048 32 [1] iota_S1x2048_d1_w32) k0_pay20 (View.ld X3 rs24)

end Cert.KernelIdeal.Hand

end
-- ==== Proof.KernelIdealR0Gather.lean ====
import proofs.«418351_j72971494359151_1_alg».proof.Proof.KernelIdealR0Terms
import Idealize.ShloMosaic.Lib.ValueLayout
import Idealize.ShloMosaic.PureOps.Ideal.Laws

noncomputable section

namespace Cert.KernelIdeal.Hand

open Idealize.ShloMosaic Idealize.SL.Sem
open Idealize.ShloMosaic.ValueIdx
open Cert.KernelIdeal Cert.KernelIdeal.Gen
open scoped BigOperators

theorem entry_eq (a b : BitVec 32) :
    (FloatOps.sitofp (F := Ideal) .f32 ((IntOp.cmpi .eq a b).setWidth 32) : Ideal .f32) = if a = b then 1 else 0 := by
  show (((((IntOp.cmpi .eq a b).setWidth 32).toInt : ℤ) : ℝ) : EReal) = _
  by_cases h : a = b
  · subst h
    rw [if_pos rfl]
    have : ((IntOp.cmpi .eq a a).setWidth 32).toInt = 1 := by
      simp [IntOp.cmpi]
    rw [this]; simp
  · rw [if_neg h]
    have hb : (a == b) = false := beq_eq_false_iff_ne.mpr h
    have : ((IntOp.cmpi .eq a b).setWidth 32).toInt = 0 := by
      simp [IntOp.cmpi, hb]
    rw [this]; simp

theorem col_to_vec {α : Type} (x : S1280x1.Idx → α) (e : Fin 1280) :
    shapeCast S1280 x shapeCasts_S1280x1_S1280 (ix1 e) = x (ix2 e (0 : Fin 1)) :=
  shapeCast_apply x _ _ _ (by
    rw [Shape.rowMajor_val_two, Shape.rowMajor_val_one]
    show e.val * 1 + 0 = e.val
    omega)

theorem vec_to_col {α : Type} (x : S1280.Idx → α) (e : Fin 1280) (u : Fin 1) :
    shapeCast S1280x1 x shapeCasts_S1280_S1280x1 (ix2 e u) = x (ix1 e) :=
  shapeCast_apply x _ _ _ (by
    have hu : u.val = 0 := by omega
    rw [Shape.rowMajor_val_two, Shape.rowMajor_val_one]
    show e.val = e.val * 1 + u.val
    omega)

theorem col_bcast_2048 {α : Type} (x : S1280x1.Idx → α) (e : Fin 1280) (j : Fin 2048) :
    broadcastTo S1280x2048 x broadcasts_S1280x1_S1280x2048 (ix2 e j) = x (ix2 e (0 : Fin 1)) := by
  refine broadcastTo_apply x _ (ix2 e j) (ix2 e (0 : Fin 1)) fun ax => ?_
  match ax with
  | ⟨0, _⟩ => rfl
  | ⟨1, _⟩ => rfl

theorem col_bcast_64 {α : Type} (x : S1280x1.Idx → α) (e : Fin 1280) (d : Fin 64) :
    broadcastTo S1280x64 x broadcasts_S1280x1_S1280x64 (ix2 e d) = x (ix2 e (0 : Fin 1)) := by
  refine broadcastTo_apply x _ (ix2 e d) (ix2 e (0 : Fin 1)) fun ax => ?_
  match ax with
  | ⟨0, _⟩ => rfl
  | ⟨1, _⟩ => rfl

-- Row j of the 2048-row slice starting at row `o` is row o + j.
theorem ld_slice {Val : EltTy → Type} {e' : EltTy} (X : S51200x64.Idx → Val e') (o : ℕ)
    (inb : ∀ a, (![o, 0] : Fin 2 → Nat) a + S2048x64.size a ≤ S51200x64.size a)
    (j : Fin 2048) (d : Fin 64) (h : o + j.val < 51200) :
    View.ld X (Rect.unit (s := S51200x64) ![o, 0] S2048x64.size inb) (ix2 j d) = X (ix2 ⟨o + j.val, h⟩ d) := by
  show X _ = X _
  refine congrArg X (funext fun ax => Fin.ext ?_)
  match ax with
  | ⟨0, _⟩ => show o + 1 * j.val = o + j.val; omega
  | ⟨1, _⟩ => show 0 + 1 * d.val = d.val; omega

theorem row_bcast (o : ℕ) (e : Fin 1280) (j : Fin 2048) :
    broadcastTo S1280x2048 (addi (iota .tc S1x2048 32 [1] iota_S1x2048_d1_w32) (broadcast S1x2048 (BitVec.ofNat 32 o)))
        broadcasts_S1x2048_S1280x2048 (ix2 e j) = BitVec.ofNat 32 (o + j.val) := by
  rw [broadcastTo_1b_ab_apply]
  show IntOp.addi (iota .tc S1x2048 32 [1] iota_S1x2048_d1_w32 (ix2 (0 : Fin 1) j)) (BitVec.ofNat 32 o) = _
  rw [iota_single_apply]
  show BitVec.ofNat 32 j.val + BitVec.ofNat 32 o = _
  rw [← BitVec.ofNat_add, Nat.add_comm]

def blk (v : IVec S1280 32) (off : BitVec 32) (xs : Vec Ideal S2048x64 .f32) : FVec Ideal S1280x64 .f32 :=
  matmul dot_S1280x2048_S2048x64_S1280x64_1_0_0_1_n_n none
    (truncf .bf16 (sitofp .f32 (extui 32 (cmpi .eq
        (broadcastTo S1280x2048 (shapeCast S1280x1 v shapeCasts_S1280_S1280x1) broadcasts_S1280x1_S1280x2048)
        (broadcastTo S1280x2048 (addi (iota .tc S1x2048 32 [1] iota_S1x2048_d1_w32) (broadcast S1x2048 off))
          broadcasts_S1x2048_S1280x2048)) natLt_1_32)) bitsLt_bf16_f32)
    (truncf .bf16 (shapeCast S2048x64 xs shapeCasts_S2048x64_S2048x64) bitsLt_bf16_f32)
    (constant S1280x64 .f32 0x00000000#32)

theorem lhs_axis0 (i : S1280x64.Idx) (q : dot_S1280x2048_S2048x64_S1280x64_1_0_0_1_n_n.contr.Idx) :
    (dot_S1280x2048_S2048x64_S1280x64_1_0_0_1_n_n.lhsIdx i q 0).val = (i 0).val := by
  unfold DotDims.lhsIdx
  rw [dif_neg (show ¬(0 : Fin S1280x2048.rank) ∈ dot_S1280x2048_S2048x64_S1280x64_1_0_0_1_n_n.lhsBatch by decide),
    dif_pos (show (0 : Fin S1280x2048.rank) ∈ dot_S1280x2048_S2048x64_S1280x64_1_0_0_1_n_n.lhsNonContracting by decide)]
  rfl

theorem lhs_axis1 (i : S1280x64.Idx) (q : dot_S1280x2048_S2048x64_S1280x64_1_0_0_1_n_n.contr.Idx) :
    (dot_S1280x2048_S2048x64_S1280x64_1_0_0_1_n_n.lhsIdx i q 1).val = (q ⟨0, by decide⟩).val :=
  dot_S1280x2048_S2048x64_S1280x64_1_0_0_1_n_n.lhsIdx_val_of_single rfl i q

theorem rhs_axis0 (i : S1280x64.Idx) (q : dot_S1280x2048_S2048x64_S1280x64_1_0_0_1_n_n.contr.Idx) :
    (dot_S1280x2048_S2048x64_S1280x64_1_0_0_1_n_n.rhsIdx i q 0).val = (q ⟨0, by decide⟩).val :=
  dot_S1280x2048_S2048x64_S1280x64_1_0_0_1_n_n.rhsIdx_val_of_single rfl i q

theorem rhs_axis1 (i : S1280x64.Idx) (q : dot_S1280x2048_S2048x64_S1280x64_1_0_0_1_n_n.contr.Idx) :
    (dot_S1280x2048_S2048x64_S1280x64_1_0_0_1_n_n.rhsIdx i q 1).val = (i 1).val := by
  unfold DotDims.rhsIdx
  rw [dif_neg (show ¬(1 : Fin S2048x64.rank) ∈ dot_S1280x2048_S2048x64_S1280x64_1_0_0_1_n_n.rhsBatch by decide),
    dif_pos (show (1 : Fin S2048x64.rank) ∈ dot_S1280x2048_S2048x64_S1280x64_1_0_0_1_n_n.rhsNonContracting by decide)]
  rfl

theorem blk_apply (v : IVec S1280 32) (o : ℕ) (xs : Vec Ideal S2048x64 .f32) (e : Fin 1280) (d : Fin 64) :
    blk v (BitVec.ofNat 32 o) xs (ix2 e d)
      = ∑ j : Fin 2048, Cert.Spec.oh (v (ix1 e)) (o + j.val) * xs (ix2 j d) := by
  unfold blk
  simp only [matmul]
  rw [Ideal.matmul_constant_zero_apply,
    ← Equiv.sum_comp (contrEquiv1 dot_S1280x2048_S2048x64_S1280x64_1_0_0_1_n_n 2048 rfl rfl).symm]
  refine Finset.sum_congr rfl fun j _ => ?_
  have hk := contrEquiv1_symm_val dot_S1280x2048_S2048x64_S1280x64_1_0_0_1_n_n 2048 rfl rfl j
  have el : dot_S1280x2048_S2048x64_S1280x64_1_0_0_1_n_n.lhsIdx (ix2 e d)
      ((contrEquiv1 dot_S1280x2048_S2048x64_S1280x64_1_0_0_1_n_n 2048 rfl rfl).symm j) = ix2 e j :=
    funext fun a => Fin.ext (by
      match a with
      | ⟨0, _⟩ => exact lhs_axis0 _ _
      | ⟨1, _⟩ => exact (lhs_axis1 _ _).trans hk)
  have er : dot_S1280x2048_S2048x64_S1280x64_1_0_0_1_n_n.rhsIdx (ix2 e d)
      ((contrEquiv1 dot_S1280x2048_S2048x64_S1280x64_1_0_0_1_n_n 2048 rfl rfl).symm j) = ix2 j d :=
    funext fun a => Fin.ext (by
      match a with
      | ⟨0, _⟩ => exact (rhs_axis0 _ _).trans hk
      | ⟨1, _⟩ => exact rhs_axis1 _ _)
  rw [el, er]
  show FloatOps.sitofp (F := Ideal) .f32 ((IntOp.cmpi .eq
      (broadcastTo S1280x2048 (shapeCast S1280x1 v shapeCasts_S1280_S1280x1) broadcasts_S1280x1_S1280x2048 (ix2 e j))
      (broadcastTo S1280x2048 (addi (iota .tc S1x2048 32 [1] iota_S1x2048_d1_w32) (broadcast S1x2048 (BitVec.ofNat 32 o)))
        broadcasts_S1x2048_S1280x2048 (ix2 e j))).setWidth 32)
    * shapeCast S2048x64 xs shapeCasts_S2048x64_S2048x64 (ix2 j d) = _
  rw [col_bcast_2048, vec_to_col, row_bcast, shapeCast_self, entry_eq]
  rfl

def psum (x : Fin 51200 → Fin 64 → EReal) (a : BitVec 32) (d : Fin 64) (k : ℕ) : EReal :=
  ∑ n ∈ Finset.range k, if h : n < 51200 then Cert.Spec.oh a n * x ⟨n, h⟩ d else 0

theorem psum_zero (x : Fin 51200 → Fin 64 → EReal) (a : BitVec 32) (d : Fin 64) : psum x a d 0 = 0 := by
  unfold psum; rw [Finset.range_zero, Finset.sum_empty]

theorem psum_block (x : Fin 51200 → Fin 64 → EReal) (a : BitVec 32) (d : Fin 64) (o : ℕ) (ho : o + 2048 ≤ 51200) :
    psum x a d o + ∑ j : Fin 2048, Cert.Spec.oh a (o + j.val) * x ⟨o + j.val, by have := j.isLt; omega⟩ d
      = psum x a d (o + 2048) := by
  unfold psum
  rw [Finset.sum_range_add,
    ← Fin.sum_univ_eq_sum_range (fun i => if h : o + i < 51200 then Cert.Spec.oh a (o + i) * x ⟨o + i, h⟩ d else 0) 2048]
  congr 1
  refine Finset.sum_congr rfl fun j _ => ?_
  rw [dif_pos (by have := j.isLt; omega)]

theorem psum_full (x : Fin 51200 → Fin 64 → EReal) (a : BitVec 32) (d : Fin 64) :
    psum x a d 51200 = Cert.Spec.gath x a d := by
  unfold psum Cert.Spec.gath
  rw [← Fin.sum_univ_eq_sum_range (fun n => if h : n < 51200 then Cert.Spec.oh a n * x ⟨n, h⟩ d else 0) 51200]
  refine Finset.sum_congr rfl fun n _ => ?_
  rw [dif_pos n.isLt]

theorem step (X3 : Vec Ideal S51200x64 .f32) (v : IVec S1280 32) (o : ℕ) (ho : o + 2048 ≤ 51200)
    (inb : ∀ a, (![o, 0] : Fin 2 → Nat) a + S2048x64.size a ≤ S51200x64.size a)
    (acc : FVec Ideal S1280x64 .f32) (e : Fin 1280) (d : Fin 64)
    (hacc : acc (ix2 e d) = psum (fun n c => X3 (ix2 n c)) (v (ix1 e)) d o) :
    addf acc (blk v (BitVec.ofNat 32 o) (View.ld X3 (Rect.unit (s := S51200x64) ![o, 0] S2048x64.size inb))) (ix2 e d)
      = psum (fun n c => X3 (ix2 n c)) (v (ix1 e)) d (o + 2048) := by
  rw [addf_apply, hacc, blk_apply, ← psum_block _ _ _ o ho]
  congr 1
  refine Finset.sum_congr rfl fun j _ => ?_
  rw [ld_slice X3 o inb j d (by have := j.isLt; omega)]

section Stages

variable (X0 : Vec Ideal S1280x1 .i32) (X2 : Vec Ideal S1280x1 .f32) (X3 : Vec Ideal S51200x64 .f32)

theorem g5_eq :
    g5 X0 X3 = addf (addf (broadcast S1280x64 (Scalar.ofBits (F := Ideal) .f32 0x00000000#32))
        (blk (k0_pay2 X0) (BitVec.ofNat 32 0) (View.ld X3 rs0)))
      (blk (k0_pay2 X0) (BitVec.ofNat 32 2048) (View.ld X3 rs1)) := rfl

theorem g6_eq :
    g6 X0 X3 = addf (addf (addf (g5 X0 X3)
        (blk (k0_pay2 X0) (BitVec.ofNat 32 4096) (View.ld X3 rs2)))
        (blk (k0_pay2 X0) (BitVec.ofNat 32 6144) (View.ld X3 rs3)))
      (blk (k0_pay2 X0) (BitVec.ofNat 32 8192) (View.ld X3 rs4)) := rfl

theorem g8_eq :
    g8 X0 X3 = addf (addf (addf (g6 X0 X3)
        (blk (k0_pay2 X0) (BitVec.ofNat 32 10240) (View.ld X3 rs5)))
        (blk (k0_pay2 X0) (BitVec.ofNat 32 12288) (View.ld X3 rs6)))
      (blk (k0_pay2 X0) (BitVec.ofNat 32 14336) (View.ld X3 rs7)) := rfl

theorem g11_eq :
    g11 X0 X3 = addf (addf (addf (g8 X0 X3)
        (blk (k0_pay2 X0) (BitVec.ofNat 32 16384) (View.ld X3 rs8)))
        (blk (k0_pay2 X0) (BitVec.ofNat 32 18432) (View.ld X3 rs9)))
      (blk (k0_pay2 X0) (BitVec.ofNat 32 20480) (View.ld X3 rs10)) := rfl

theorem g13_eq :
    g13 X0 X3 = addf (addf (addf (g11 X0 X3)
        (blk (k0_pay2 X0) (BitVec.ofNat 32 22528) (View.ld X3 rs11)))
        (blk (k0_pay2 X0) (BitVec.ofNat 32 24576) (View.ld X3 rs12)))
      (blk (k0_pay2 X0) (BitVec.ofNat 32 26624) (View.ld X3 rs13)) := rfl

theorem g15_eq :
    g15 X0 X3 = addf (addf (addf (g13 X0 X3)
        (blk (k0_pay2 X0) (BitVec.ofNat 32 28672) (View.ld X3 rs14)))
        (blk (k0_pay2 X0) (BitVec.ofNat 32 30720) (View.ld X3 rs15)))
      (blk (k0_pay2 X0) (BitVec.ofNat 32 32768) (View.ld X3 rs16)) := rfl

theorem g18_eq :
    g18 X0 X3 = addf (addf (addf (addf (g15 X0 X3)
        (blk (k0_pay2 X0) (BitVec.ofNat 32 34816) (View.ld X3 rs17)))
        (blk (k0_pay2 X0) (BitVec.ofNat 32 36864) (View.ld X3 rs18)))
        (blk (k0_pay2 X0) (BitVec.ofNat 32 38912) (View.ld X3 rs19)))
      (blk (k0_pay2 X0) (BitVec.ofNat 32 40960) (View.ld X3 rs20)) := rfl

theorem g19_eq :
    g19 X0 X3 = addf (addf (addf (g18 X0 X3)
        (blk (k0_pay2 X0) (BitVec.ofNat 32 43008) (View.ld X3 rs21)))
        (blk (k0_pay2 X0) (BitVec.ofNat 32 45056) (View.ld X3 rs22)))
      (blk (k0_pay2 X0) (BitVec.ofNat 32 47104) (View.ld X3 rs23)) := rfl

theorem msg_eq :
    msg X0 X2 X3 = truncf .bf16 (mulf
        (addf (g19 X0 X3) (blk (k0_pay2 X0) (BitVec.ofNat 32 49152) (View.ld X3 rs24)))
        (broadcastTo S1280x64 (shapeCast S1280x1 (k0_pay4 X2) shapeCasts_S1280_S1280x1) broadcasts_S1280x1_S1280x64))
      bitsLt_bf16_f32 := rfl

variable (e : Fin 1280) (d : Fin 64)

theorem g5_apply : g5 X0 X3 (ix2 e d) = psum (fun n c => X3 (ix2 n c)) (k0_pay2 X0 (ix1 e)) d 4096 := by
  rw [g5_eq]
  refine step X3 _ 2048 (by norm_num) _ _ e d ?_
  refine step X3 _ 0 (by norm_num) _ _ e d ?_
  show Ideal.ofBits .f32 0x00000000#32 = _
  rw [Ideal.ofBits_zero_f32, psum_zero]

theorem g6_apply : g6 X0 X3 (ix2 e d) = psum (fun n c => X3 (ix2 n c)) (k0_pay2 X0 (ix1 e)) d 10240 := by
  rw [g6_eq]
  refine step X3 _ 8192 (by norm_num) _ _ e d ?_
  refine step X3 _ 6144 (by norm_num) _ _ e d ?_
  refine step X3 _ 4096 (by norm_num) _ _ e d ?_
  exact g5_apply X0 X3 e d

theorem g8_apply : g8 X0 X3 (ix2 e d) = psum (fun n c => X3 (ix2 n c)) (k0_pay2 X0 (ix1 e)) d 16384 := by
  rw [g8_eq]
  refine step X3 _ 14336 (by norm_num) _ _ e d ?_
  refine step X3 _ 12288 (by norm_num) _ _ e d ?_
  refine step X3 _ 10240 (by norm_num) _ _ e d ?_
  exact g6_apply X0 X3 e d

theorem g11_apply : g11 X0 X3 (ix2 e d) = psum (fun n c => X3 (ix2 n c)) (k0_pay2 X0 (ix1 e)) d 22528 := by
  rw [g11_eq]
  refine step X3 _ 20480 (by norm_num) _ _ e d ?_
  refine step X3 _ 18432 (by norm_num) _ _ e d ?_
  refine step X3 _ 16384 (by norm_num) _ _ e d ?_
  exact g8_apply X0 X3 e d

theorem g13_apply : g13 X0 X3 (ix2 e d) = psum (fun n c => X3 (ix2 n c)) (k0_pay2 X0 (ix1 e)) d 28672 := by
  rw [g13_eq]
  refine step X3 _ 26624 (by norm_num) _ _ e d ?_
  refine step X3 _ 24576 (by norm_num) _ _ e d ?_
  refine step X3 _ 22528 (by norm_num) _ _ e d ?_
  exact g11_apply X0 X3 e d

theorem g15_apply : g15 X0 X3 (ix2 e d) = psum (fun n c => X3 (ix2 n c)) (k0_pay2 X0 (ix1 e)) d 34816 := by
  rw [g15_eq]
  refine step X3 _ 32768 (by norm_num) _ _ e d ?_
  refine step X3 _ 30720 (by norm_num) _ _ e d ?_
  refine step X3 _ 28672 (by norm_num) _ _ e d ?_
  exact g13_apply X0 X3 e d

theorem g18_apply : g18 X0 X3 (ix2 e d) = psum (fun n c => X3 (ix2 n c)) (k0_pay2 X0 (ix1 e)) d 43008 := by
  rw [g18_eq]
  refine step X3 _ 40960 (by norm_num) _ _ e d ?_
  refine step X3 _ 38912 (by norm_num) _ _ e d ?_
  refine step X3 _ 36864 (by norm_num) _ _ e d ?_
  refine step X3 _ 34816 (by norm_num) _ _ e d ?_
  exact g15_apply X0 X3 e d

theorem g19_apply : g19 X0 X3 (ix2 e d) = psum (fun n c => X3 (ix2 n c)) (k0_pay2 X0 (ix1 e)) d 49152 := by
  rw [g19_eq]
  refine step X3 _ 47104 (by norm_num) _ _ e d ?_
  refine step X3 _ 45056 (by norm_num) _ _ e d ?_
  refine step X3 _ 43008 (by norm_num) _ _ e d ?_
  exact g18_apply X0 X3 e d

end Stages

-- Entry (e, d) of the message block: the source's table row, gathered, times the edge's weight.
theorem msg_apply (X0 : Vec Ideal S1280x1 .i32) (X2 : Vec Ideal S1280x1 .f32) (X3 : Vec Ideal S51200x64 .f32)
    (e : Fin 1280) (d : Fin 64) :
    msg (F := Ideal) X0 X2 X3 (ValueIdx.ix2 e d)
      = Cert.Spec.gath (fun n d => X3 (ValueIdx.ix2 n d)) (X0 (ValueIdx.ix2 e 0)) d * X2 (ValueIdx.ix2 e 0) := by
  rw [msg_eq, truncf_apply, mulf_apply, col_bcast_64, vec_to_col,
    step X3 _ 49152 (by norm_num) _ _ e d (g19_apply X0 X3 e d), psum_full]
  show Cert.Spec.gath _ (shapeCast S1280 X0 shapeCasts_S1280x1_S1280 (ix1 e)) d
      * shapeCast S1280 X2 shapeCasts_S1280x1_S1280 (ix1 e) = _
  rw [col_to_vec, col_to_vec]

end Cert.KernelIdeal.Hand

end
-- ==== Proof.KernelIdealR0Scatter.lean ====
import proofs.«418351_j72971494359151_1_alg».proof.Proof.KernelIdealR0Terms
import proofs.«418351_j72971494359151_1_alg».proof.Proof.Spec
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

namespace Cert.KernelIdeal.Hand

open Idealize.ShloMosaic Idealize.ShloMosaic.ValueIdx Idealize.SL.Sem
open Cert.KernelIdeal Cert.KernelIdeal.Gen

theorem rowNumbers_apply (off : ℕ) (j : Fin 2048) :
    addi (iota .tc S1x2048 32 [1] iota_S1x2048_d1_w32) (broadcast S1x2048 (BitVec.ofNat 32 off)) (ix2 (0 : Fin 1) j)
      = BitVec.ofNat 32 (off + j.val) := by
  show IntOp.addi (iota .tc S1x2048 32 [1] iota_S1x2048_d1_w32 (ix2 (0 : Fin 1) j)) (BitVec.ofNat 32 off) = _
  rw [iota_single_apply]
  show BitVec.ofNat 32 j.val + BitVec.ofNat 32 off = _
  rw [← BitVec.ofNat_add, Nat.add_comm]

theorem broadcastTo_a1_ab_apply {α : Type} (v : S1280x1.Idx → α) (e : Fin 1280) (j : Fin 2048) :
    broadcastTo S1280x2048 v broadcasts_S1280x1_S1280x2048 (ix2 e j) = v (ix2 e (0 : Fin 1)) := by
  refine broadcastTo_apply v _ (ix2 e j) (ix2 e (0 : Fin 1)) fun ax => ?_
  match ax with
  | ⟨0, _⟩ => rfl
  | ⟨1, _⟩ => rfl

theorem dstColumn_apply (D : IVec S1280 32) (e : Fin 1280) :
    shapeCast S1280x1 D shapeCasts_S1280_S1280x1 (ix2 e (0 : Fin 1)) = D (ix1 e) := by
  refine shapeCast_apply D _ (ix2 e (0 : Fin 1)) (ix1 e) ?_
  rw [Shape.rowMajor_val_one, Shape.rowMajor_val_two]
  show e.val = e.val * 1 + 0
  omega

-- Entry (e, j) is 1 exactly when destination e is candidate row j.
theorem cmpMatrix_apply (D : IVec S1280 32) (row : IVec S1x2048 32) (e : Fin 1280) (j : Fin 2048) :
    (truncf .bf16 (sitofp .f32 (extui 32 (cmpi .eq
        (broadcastTo S1280x2048 (shapeCast S1280x1 D shapeCasts_S1280_S1280x1) broadcasts_S1280x1_S1280x2048)
        (broadcastTo S1280x2048 row broadcasts_S1x2048_S1280x2048)) natLt_1_32)) bitsLt_bf16_f32
        : FVec Ideal S1280x2048 .bf16) (ix2 e j)
      = if D (ix1 e) = row (ix2 (0 : Fin 1) j) then 1 else 0 := by
  rw [truncf_apply, sitofp_apply, extui_apply]
  show (((((IntOp.cmpi .eq
      (broadcastTo S1280x2048 (shapeCast S1280x1 D shapeCasts_S1280_S1280x1) broadcasts_S1280x1_S1280x2048 (ix2 e j))
      (broadcastTo S1280x2048 row broadcasts_S1x2048_S1280x2048 (ix2 e j))).setWidth 32).toInt : ℤ) : ℝ) : EReal) = _
  rw [broadcastTo_a1_ab_apply, dstColumn_apply, broadcastTo_1b_ab_apply, toInt_setWidth_bit]
  by_cases h : D (ix1 e) = row (ix2 (0 : Fin 1) j)
  · rw [if_pos h, h]
    simp [IntOp.cmpi]
  · rw [if_neg h]
    simp [IntOp.cmpi, h]

theorem lhs_scatter_0 (jd : S2048x64.Idx) (k : dot_S1280x2048_S1280x64_S2048x64_0_0_1_1_n_n.contr.Idx) :
    (dot_S1280x2048_S1280x64_S2048x64_0_0_1_1_n_n.lhsIdx jd k 0).val = (k ⟨0, by decide⟩).val :=
  DotDims.lhsIdx_val_of_single _ rfl jd k

theorem lhs_scatter_1 (jd : S2048x64.Idx) (k : dot_S1280x2048_S1280x64_S2048x64_0_0_1_1_n_n.contr.Idx) :
    (dot_S1280x2048_S1280x64_S2048x64_0_0_1_1_n_n.lhsIdx jd k 1).val = (jd 0).val := by
  unfold DotDims.lhsIdx
  rw [dif_neg (show ¬(1 : Fin S1280x2048.rank) ∈ dot_S1280x2048_S1280x64_S2048x64_0_0_1_1_n_n.lhsBatch by decide),
    dif_pos (show (1 : Fin S1280x2048.rank) ∈ dot_S1280x2048_S1280x64_S2048x64_0_0_1_1_n_n.lhsNonContracting by decide)]
  rfl

theorem rhs_scatter_0 (jd : S2048x64.Idx) (k : dot_S1280x2048_S1280x64_S2048x64_0_0_1_1_n_n.contr.Idx) :
    (dot_S1280x2048_S1280x64_S2048x64_0_0_1_1_n_n.rhsIdx jd k 0).val = (k ⟨0, by decide⟩).val :=
  DotDims.rhsIdx_val_of_single _ rfl jd k

theorem rhs_scatter_1 (jd : S2048x64.Idx) (k : dot_S1280x2048_S1280x64_S2048x64_0_0_1_1_n_n.contr.Idx) :
    (dot_S1280x2048_S1280x64_S2048x64_0_0_1_1_n_n.rhsIdx jd k 1).val = (jd 1).val := by
  unfold DotDims.rhsIdx
  rw [dif_neg (show ¬(1 : Fin S1280x64.rank) ∈ dot_S1280x2048_S1280x64_S2048x64_0_0_1_1_n_n.rhsBatch by decide),
    dif_pos (show (1 : Fin S1280x64.rank) ∈ dot_S1280x2048_S1280x64_S2048x64_0_0_1_1_n_n.rhsNonContracting by decide)]
  rfl

-- Contracting along the edges: entry (j, d) is ∑ₑ A(e, j) · M(e, d).
theorem scatterProduct_apply (A : FVec Ideal S1280x2048 .bf16) (M : FVec Ideal S1280x64 .bf16) (j : Fin 2048) (d : Fin 64) :
    matmul dot_S1280x2048_S1280x64_S2048x64_0_0_1_1_n_n none A M (constant (F := Ideal) S2048x64 .f32 0x00000000#32) (ix2 j d)
      = ∑ e : Fin 1280, A (ix2 e j) * M (ix2 e d) := by
  show FloatOps.matmul dot_S1280x2048_S1280x64_S2048x64_0_0_1_1_n_n none A M
    (constant (F := Ideal) S2048x64 .f32 0x00000000#32) (ix2 j d) = _
  rw [Ideal.matmul_constant_zero_apply,
    ← Equiv.sum_comp (contrEquiv1 dot_S1280x2048_S1280x64_S2048x64_0_0_1_1_n_n 1280 rfl rfl).symm]
  refine Finset.sum_congr rfl fun e _ => ?_
  have hk := contrEquiv1_symm_val dot_S1280x2048_S1280x64_S2048x64_0_0_1_1_n_n 1280 rfl rfl e
  have hl : dot_S1280x2048_S1280x64_S2048x64_0_0_1_1_n_n.lhsIdx (ix2 j d)
      ((contrEquiv1 dot_S1280x2048_S1280x64_S2048x64_0_0_1_1_n_n 1280 rfl rfl).symm e) = ix2 e j := by
    funext ax; apply Fin.ext
    match ax with
    | ⟨0, _⟩ => exact (lhs_scatter_0 _ _).trans hk
    | ⟨1, _⟩ => exact lhs_scatter_1 _ _
  have hr : dot_S1280x2048_S1280x64_S2048x64_0_0_1_1_n_n.rhsIdx (ix2 j d)
      ((contrEquiv1 dot_S1280x2048_S1280x64_S2048x64_0_0_1_1_n_n 1280 rfl rfl).symm e) = ix2 e d := by
    funext ax; apply Fin.ext
    match ax with
    | ⟨0, _⟩ => exact (rhs_scatter_0 _ _).trans hk
    | ⟨1, _⟩ => exact rhs_scatter_1 _ _
  rw [hl, hr]

theorem contribution_apply (D : IVec S1280 32) (off : ℕ) (M : FVec Ideal S1280x64 .bf16) (j : Fin 2048) (d : Fin 64) :
    matmul dot_S1280x2048_S1280x64_S2048x64_0_0_1_1_n_n none
        (truncf .bf16 (sitofp .f32 (extui 32 (cmpi .eq
          (broadcastTo S1280x2048 (shapeCast S1280x1 D shapeCasts_S1280_S1280x1) broadcasts_S1280x1_S1280x2048)
          (broadcastTo S1280x2048
            (addi (iota .tc S1x2048 32 [1] iota_S1x2048_d1_w32) (broadcast S1x2048 (BitVec.ofNat 32 off)))
            broadcasts_S1x2048_S1280x2048)) natLt_1_32)) bitsLt_bf16_f32 : FVec Ideal S1280x2048 .bf16)
        M (constant (F := Ideal) S2048x64 .f32 0x00000000#32) (ix2 j d)
      = ∑ e : Fin 1280, Cert.Spec.oh (D (ix1 e)) (off + j.val) * M (ix2 e d) := by
  rw [scatterProduct_apply]
  refine Finset.sum_congr rfl fun e _ => ?_
  rw [cmpMatrix_apply, rowNumbers_apply]
  rfl

-- A slice's new value: its old value plus what the edges into its rows send.
theorem sliceUpdate_apply (D : IVec S1280 32) (off : ℕ) (M : FVec Ideal S1280x64 .bf16) (P : Vec Ideal S2048x64 .f32)
    (j : Fin 2048) (d : Fin 64) :
    addf P (matmul dot_S1280x2048_S1280x64_S2048x64_0_0_1_1_n_n none
        (truncf .bf16 (sitofp .f32 (extui 32 (cmpi .eq
          (broadcastTo S1280x2048 (shapeCast S1280x1 D shapeCasts_S1280_S1280x1) broadcasts_S1280x1_S1280x2048)
          (broadcastTo S1280x2048
            (addi (iota .tc S1x2048 32 [1] iota_S1x2048_d1_w32) (broadcast S1x2048 (BitVec.ofNat 32 off)))
            broadcasts_S1x2048_S1280x2048)) natLt_1_32)) bitsLt_bf16_f32 : FVec Ideal S1280x2048 .bf16)
        M (constant (F := Ideal) S2048x64 .f32 0x00000000#32)) (ix2 j d)
      = P (ix2 j d) + ∑ e : Fin 1280, Cert.Spec.oh (D (ix1 e)) (off + j.val) * M (ix2 e d) := by
  rw [addf_apply, contribution_apply]

theorem slice0_apply (v4 D : IVec S1280 32) (v8 : FVec Ideal S1280 .f32) (v369 : FVec Ideal S1280x64 .f32)
    (v370 v371 : IVec S1x2048 32) (v380 P : Vec Ideal S2048x64 .f32) (j : Fin 2048) (d : Fin 64) :
    k0_pay22 v4 D v8 v369 v370 v371 v380 P (ix2 j d)
      = P (ix2 j d) + ∑ e : Fin 1280, Cert.Spec.oh (D (ix1 e)) (0 + j.val) * k0_pay21 v4 v8 v369 v370 v371 v380 (ix2 e d) := by
  unfold k0_pay22
  rw [shapeCast_self]
  exact sliceUpdate_apply D 0 (k0_pay21 v4 v8 v369 v370 v371 v380) P j d

theorem slice1_apply (v4 D : IVec S1280 32) (v8 : FVec Ideal S1280 .f32) (v369 : FVec Ideal S1280x64 .f32)
    (v370 v371 : IVec S1x2048 32) (v380 P : Vec Ideal S2048x64 .f32) (j : Fin 2048) (d : Fin 64) :
    k0_pay24 (k0_pay23 v4 D v8 v369 v370 v371 v380 P) (ix2 j d)
      = P (ix2 j d) + ∑ e : Fin 1280, Cert.Spec.oh (D (ix1 e)) (2048 + j.val) * k0_pay21 v4 v8 v369 v370 v371 v380 (ix2 e d) := by
  unfold k0_pay24 k0_pay23
  rw [shapeCast_self]
  exact sliceUpdate_apply D 2048 (k0_pay21 v4 v8 v369 v370 v371 v380) P j d

theorem slice2_apply (D : IVec S1280 32) (M : FVec Ideal S1280x64 .bf16) (P : Vec Ideal S2048x64 .f32) (j : Fin 2048) (d : Fin 64) :
    k0_pay25 D M P (ix2 j d) = P (ix2 j d) + ∑ e : Fin 1280, Cert.Spec.oh (D (ix1 e)) (4096 + j.val) * M (ix2 e d) := by
  unfold k0_pay25
  rw [shapeCast_self]
  exact sliceUpdate_apply D 4096 M P j d

theorem slice3_apply (D : IVec S1280 32) (M : FVec Ideal S1280x64 .bf16) (P : Vec Ideal S2048x64 .f32) (j : Fin 2048) (d : Fin 64) :
    k0_pay26 D M P (ix2 j d) = P (ix2 j d) + ∑ e : Fin 1280, Cert.Spec.oh (D (ix1 e)) (6144 + j.val) * M (ix2 e d) := by
  unfold k0_pay26
  rw [shapeCast_self]
  exact sliceUpdate_apply D 6144 M P j d

theorem slice4_apply (D : IVec S1280 32) (M : FVec Ideal S1280x64 .bf16) (P : Vec Ideal S2048x64 .f32) (j : Fin 2048) (d : Fin 64) :
    k0_pay28 M (k0_pay27 D) P (ix2 j d) = P (ix2 j d) + ∑ e : Fin 1280, Cert.Spec.oh (D (ix1 e)) (8192 + j.val) * M (ix2 e d) := by
  unfold k0_pay28 k0_pay27
  rw [shapeCast_self]
  exact sliceUpdate_apply D 8192 M P j d

theorem slice5_apply (D : IVec S1280 32) (M : FVec Ideal S1280x64 .bf16) (P : Vec Ideal S2048x64 .f32) (j : Fin 2048) (d : Fin 64) :
    k0_pay29 D M P (ix2 j d) = P (ix2 j d) + ∑ e : Fin 1280, Cert.Spec.oh (D (ix1 e)) (10240 + j.val) * M (ix2 e d) := by
  unfold k0_pay29
  rw [shapeCast_self]
  exact sliceUpdate_apply D 10240 M P j d

theorem slice6_apply (D : IVec S1280 32) (M : FVec Ideal S1280x64 .bf16) (P : Vec Ideal S2048x64 .f32) (j : Fin 2048) (d : Fin 64) :
    k0_pay30 D M P (ix2 j d) = P (ix2 j d) + ∑ e : Fin 1280, Cert.Spec.oh (D (ix1 e)) (12288 + j.val) * M (ix2 e d) := by
  unfold k0_pay30
  rw [shapeCast_self]
  exact sliceUpdate_apply D 12288 M P j d

theorem slice7_apply (D : IVec S1280 32) (M : FVec Ideal S1280x64 .bf16) (P : Vec Ideal S2048x64 .f32) (j : Fin 2048) (d : Fin 64) :
    k0_pay31 D M P (ix2 j d) = P (ix2 j d) + ∑ e : Fin 1280, Cert.Spec.oh (D (ix1 e)) (14336 + j.val) * M (ix2 e d) := by
  unfold k0_pay31
  rw [shapeCast_self]
  exact sliceUpdate_apply D 14336 M P j d

theorem slice8_apply (D : IVec S1280 32) (M : FVec Ideal S1280x64 .bf16) (P : Vec Ideal S2048x64 .f32) (j : Fin 2048) (d : Fin 64) :
    k0_pay32 D M P (ix2 j d) = P (ix2 j d) + ∑ e : Fin 1280, Cert.Spec.oh (D (ix1 e)) (16384 + j.val) * M (ix2 e d) := by
  unfold k0_pay32
  rw [shapeCast_self]
  exact sliceUpdate_apply D 16384 M P j d

theorem slice9_apply (D : IVec S1280 32) (M : FVec Ideal S1280x64 .bf16) (P : Vec Ideal S2048x64 .f32) (j : Fin 2048) (d : Fin 64) :
    k0_pay34 (k0_pay33 D M) P (ix2 j d) = P (ix2 j d) + ∑ e : Fin 1280, Cert.Spec.oh (D (ix1 e)) (18432 + j.val) * M (ix2 e d) := by
  unfold k0_pay34 k0_pay33
  rw [shapeCast_self]
  exact sliceUpdate_apply D 18432 M P j d

theorem slice10_apply (D : IVec S1280 32) (M : FVec Ideal S1280x64 .bf16) (P : Vec Ideal S2048x64 .f32) (j : Fin 2048) (d : Fin 64) :
    k0_pay35 D M P (ix2 j d) = P (ix2 j d) + ∑ e : Fin 1280, Cert.Spec.oh (D (ix1 e)) (20480 + j.val) * M (ix2 e d) := by
  unfold k0_pay35
  rw [shapeCast_self]
  exact sliceUpdate_apply D 20480 M P j d

theorem slice11_apply (D : IVec S1280 32) (M : FVec Ideal S1280x64 .bf16) (P : Vec Ideal S2048x64 .f32) (j : Fin 2048) (d : Fin 64) :
    k0_pay36 D M P (ix2 j d) = P (ix2 j d) + ∑ e : Fin 1280, Cert.Spec.oh (D (ix1 e)) (22528 + j.val) * M (ix2 e d) := by
  unfold k0_pay36
  rw [shapeCast_self]
  exact sliceUpdate_apply D 22528 M P j d

theorem slice12_apply (D : IVec S1280 32) (M : FVec Ideal S1280x64 .bf16) (P : Vec Ideal S2048x64 .f32) (j : Fin 2048) (d : Fin 64) :
    k0_pay38 D M k0_pay37 P (ix2 j d) = P (ix2 j d) + ∑ e : Fin 1280, Cert.Spec.oh (D (ix1 e)) (24576 + j.val) * M (ix2 e d) := by
  unfold k0_pay38 k0_pay37
  rw [shapeCast_self]
  exact sliceUpdate_apply D 24576 M P j d

theorem slice13_apply (D : IVec S1280 32) (M : FVec Ideal S1280x64 .bf16) (P : Vec Ideal S2048x64 .f32) (j : Fin 2048) (d : Fin 64) :
    k0_pay39 D M P (ix2 j d) = P (ix2 j d) + ∑ e : Fin 1280, Cert.Spec.oh (D (ix1 e)) (26624 + j.val) * M (ix2 e d) := by
  unfold k0_pay39
  rw [shapeCast_self]
  exact sliceUpdate_apply D 26624 M P j d

theorem slice14_apply (D : IVec S1280 32) (M : FVec Ideal S1280x64 .bf16) (P : Vec Ideal S2048x64 .f32) (j : Fin 2048) (d : Fin 64) :
    k0_pay41 (k0_pay40 D M P) (ix2 j d) = P (ix2 j d) + ∑ e : Fin 1280, Cert.Spec.oh (D (ix1 e)) (28672 + j.val) * M (ix2 e d) := by
  unfold k0_pay41 k0_pay40
  rw [shapeCast_self]
  exact sliceUpdate_apply D 28672 M P j d

theorem slice15_apply (D : IVec S1280 32) (M : FVec Ideal S1280x64 .bf16) (P : Vec Ideal S2048x64 .f32) (j : Fin 2048) (d : Fin 64) :
    k0_pay42 D M P (ix2 j d) = P (ix2 j d) + ∑ e : Fin 1280, Cert.Spec.oh (D (ix1 e)) (30720 + j.val) * M (ix2 e d) := by
  unfold k0_pay42
  rw [shapeCast_self]
  exact sliceUpdate_apply D 30720 M P j d

theorem slice16_apply (D : IVec S1280 32) (M : FVec Ideal S1280x64 .bf16) (P : Vec Ideal S2048x64 .f32) (j : Fin 2048) (d : Fin 64) :
    k0_pay43 D M P (ix2 j d) = P (ix2 j d) + ∑ e : Fin 1280, Cert.Spec.oh (D (ix1 e)) (32768 + j.val) * M (ix2 e d) := by
  unfold k0_pay43
  rw [shapeCast_self]
  exact sliceUpdate_apply D 32768 M P j d

theorem slice17_apply (D : IVec S1280 32) (M : FVec Ideal S1280x64 .bf16) (P : Vec Ideal S2048x64 .f32) (j : Fin 2048) (d : Fin 64) :
    k0_pay45 M (k0_pay44 D) P (ix2 j d) = P (ix2 j d) + ∑ e : Fin 1280, Cert.Spec.oh (D (ix1 e)) (34816 + j.val) * M (ix2 e d) := by
  unfold k0_pay45 k0_pay44
  rw [shapeCast_self]
  exact sliceUpdate_apply D 34816 M P j d

theorem slice18_apply (D : IVec S1280 32) (M : FVec Ideal S1280x64 .bf16) (P : Vec Ideal S2048x64 .f32) (j : Fin 2048) (d : Fin 64) :
    k0_pay46 D M P (ix2 j d) = P (ix2 j d) + ∑ e : Fin 1280, Cert.Spec.oh (D (ix1 e)) (36864 + j.val) * M (ix2 e d) := by
  unfold k0_pay46
  rw [shapeCast_self]
  exact sliceUpdate_apply D 36864 M P j d

theorem slice19_apply (D : IVec S1280 32) (M : FVec Ideal S1280x64 .bf16) (P : Vec Ideal S2048x64 .f32) (j : Fin 2048) (d : Fin 64) :
    k0_pay47 D M P (ix2 j d) = P (ix2 j d) + ∑ e : Fin 1280, Cert.Spec.oh (D (ix1 e)) (38912 + j.val) * M (ix2 e d) := by
  unfold k0_pay47
  rw [shapeCast_self]
  exact sliceUpdate_apply D 38912 M P j d

theorem slice20_apply (D : IVec S1280 32) (M : FVec Ideal S1280x64 .bf16) (P : Vec Ideal S2048x64 .f32) (j : Fin 2048) (d : Fin 64) :
    k0_pay48 D M P (ix2 j d) = P (ix2 j d) + ∑ e : Fin 1280, Cert.Spec.oh (D (ix1 e)) (40960 + j.val) * M (ix2 e d) := by
  unfold k0_pay48
  rw [shapeCast_self]
  exact sliceUpdate_apply D 40960 M P j d

theorem slice21_apply (D : IVec S1280 32) (M : FVec Ideal S1280x64 .bf16) (P : Vec Ideal S2048x64 .f32) (j : Fin 2048) (d : Fin 64) :
    k0_pay49 D M P (ix2 j d) = P (ix2 j d) + ∑ e : Fin 1280, Cert.Spec.oh (D (ix1 e)) (43008 + j.val) * M (ix2 e d) := by
  unfold k0_pay49
  rw [shapeCast_self]
  exact sliceUpdate_apply D 43008 M P j d

theorem slice22_apply (D : IVec S1280 32) (M : FVec Ideal S1280x64 .bf16) (P : Vec Ideal S2048x64 .f32) (j : Fin 2048) (d : Fin 64) :
    k0_pay51 (k0_pay50 D M) P (ix2 j d) = P (ix2 j d) + ∑ e : Fin 1280, Cert.Spec.oh (D (ix1 e)) (45056 + j.val) * M (ix2 e d) := by
  unfold k0_pay51 k0_pay50
  rw [shapeCast_self]
  exact sliceUpdate_apply D 45056 M P j d

theorem slice23_apply (D : IVec S1280 32) (M : FVec Ideal S1280x64 .bf16) (P : Vec Ideal S2048x64 .f32) (j : Fin 2048) (d : Fin 64) :
    k0_pay52 D M P (ix2 j d) = P (ix2 j d) + ∑ e : Fin 1280, Cert.Spec.oh (D (ix1 e)) (47104 + j.val) * M (ix2 e d) := by
  unfold k0_pay52
  rw [shapeCast_self]
  exact sliceUpdate_apply D 47104 M P j d

theorem slice24_apply (D : IVec S1280 32) (M : FVec Ideal S1280x64 .bf16) (P : Vec Ideal S2048x64 .f32) (j : Fin 2048) (d : Fin 64) :
    k0_pay53 D M P (ix2 j d) = P (ix2 j d) + ∑ e : Fin 1280, Cert.Spec.oh (D (ix1 e)) (49152 + j.val) * M (ix2 e d) := by
  unfold k0_pay53
  rw [shapeCast_self]
  exact sliceUpdate_apply D 49152 M P j d

end Cert.KernelIdeal.Hand

end
-- ==== Proof.KernelIdealR0Pieces.lean ====
import proofs.«418351_j72971494359151_1_alg».proof.Proof.KernelIdealR0Body
import proofs.«418351_j72971494359151_1_alg».proof.Proof.KernelIdealR0Terms
import proofs.«418351_j72971494359151_1_alg».proof.Proof.KernelIdealR0Gather
import proofs.«418351_j72971494359151_1_alg».proof.Proof.KernelIdealR0Scatter
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]
open scoped BigOperators

variable (VO VS : View sig .tc .vmem S51200x64 .f32) (c : Dev nD) (i : grid0.Coords) (arg1 : Memref sig .tc .vmem S1280x1 .i32) (harg1 : arg1.IsWhole) (arg2 : Memref sig .tc .vmem S1280x1 .i32) (harg2 : arg2.IsWhole) (arg3 : Memref sig .tc .vmem S1280x1 .f32) (harg3 : arg3.IsWhole) (arg4 : Memref sig .tc .vmem S51200x64 .f32) (harg4 : arg4.IsWhole) (arg5 : Memref sig .tc .vmem S51200x64 .f32) (harg5 : arg5.IsWhole) (arg6 : Memref sig .tc .vmem S51200x64 .f32) (harg6 : arg6.IsWhole)

namespace R0Pieces

theorem hz2 : (![0, 0] : Fin 2 → Nat) = fun _ => 0 := funext fun a => by fin_cases a <;> rfl

theorem slice_emb (off : ℕ) (inb : ∀ a, (![off, 0] : Fin 2 → ℕ) a + S2048x64.size a ≤ S51200x64.size a)
    (j : Fin 2048) (d : Fin 64) (h : off + j.val < 51200) :
    (Rect.unit (s := S51200x64) ![off, 0] S2048x64.size inb).emb (ix2 j d) = ix2 (⟨off + j.val, h⟩ : Fin 51200) d := by
  funext a
  match a with
  | ⟨0, _⟩ => exact Fin.ext (by show off + 1 * j.val = off + j.val; omega)
  | ⟨1, _⟩ => exact Fin.ext (by show 0 + 1 * d.val = d.val; omega)

theorem eq_slice_emb (off : ℕ) (inb : ∀ a, (![off, 0] : Fin 2 → ℕ) a + S2048x64.size a ≤ S51200x64.size a)
    (y : S51200x64.Idx) (hlo : off ≤ (y 0).val) (hhi : (y 0).val < off + 2048) :
    y = (Rect.unit (s := S51200x64) ![off, 0] S2048x64.size inb).emb
      (ix2 (⟨(y 0).val - off, by omega⟩ : Fin 2048) (⟨(y 1).val, (y 1).isLt⟩ : Fin 64)) := by
  have h51 : (y 0).val < 51200 := (y 0).isLt
  rw [slice_emb off inb _ _ (by show off + ((y 0).val - off) < 51200; omega)]
  funext a
  match a with
  | ⟨0, _⟩ => exact Fin.ext (by show (y 0).val = off + ((y 0).val - off); omega)
  | ⟨1, _⟩ => rfl

theorem not_mem_slice (off : ℕ) (inb : ∀ a, (![off, 0] : Fin 2 → ℕ) a + S2048x64.size a ≤ S51200x64.size a)
    (y : S51200x64.Idx) (h : (y 0).val < off ∨ off + 2048 ≤ (y 0).val) :
    y ∉ (Rect.unit (s := S51200x64) ![off, 0] S2048x64.size inb).set := fun hm => by
  have h0 := Rect.mem_set_unit.mp hm 0
  have h1 : off ≤ (y 0).val := h0.1
  have h2 : (y 0).val < off + 2048 := h0.2
  omega

def RowsBelow (G : S51200x64.Idx → Elt Ideal .f32) (k : ℕ) (L : List (View.Piece (Elt Ideal) S51200x64 .f32)) : Prop :=
  ∀ y : S51200x64.Idx, (y 0).val < k → View.canon L y = G y

theorem rowsBelow_nil (G : S51200x64.Idx → Elt Ideal .f32) (L : List (View.Piece (Elt Ideal) S51200x64 .f32)) :
    RowsBelow G 0 L := fun y h => absurd h (Nat.not_lt_zero _)

-- Storing G's rows [off, off+2048) over stores that settled the rows below `off` settles the rows below off + 2048.
theorem rowsBelow_cons (G : S51200x64.Idx → Elt Ideal .f32) (off : ℕ)
    (inb : ∀ a, (![off, 0] : Fin 2 → ℕ) a + S2048x64.size a ≤ S51200x64.size a)
    (w : Vec Ideal S2048x64 .f32) (L : List (View.Piece (Elt Ideal) S51200x64 .f32)) (hL : RowsBelow G off L)
    (hw : ∀ (j : Fin 2048) (d : Fin 64) (h : off + j.val < 51200), w (ix2 j d) = G (ix2 (⟨off + j.val, h⟩ : Fin 51200) d)) :
    RowsBelow G (off + 2048) (⟨Rect.unit (s := S51200x64) ![off, 0] S2048x64.size inb, w⟩ :: L) := by
  intro y hy
  by_cases hlo : (y 0).val < off
  · rw [View.canon_cons_of_not_mem (⟨Rect.unit (s := S51200x64) ![off, 0] S2048x64.size inb, w⟩ : View.Piece (Elt Ideal) S51200x64 .f32) L (not_mem_slice off inb y (Or.inl hlo))]
    exact hL y hlo
  · have h51 : (y 0).val < 51200 := (y 0).isLt
    have hrow : off + ((y 0).val - off) < 51200 := by omega
    rw [eq_slice_emb off inb y (by omega) hy, View.canon_cons_emb, hw _ _ hrow, slice_emb off inb _ _ hrow]

def RowsSplit (G : S51200x64.Idx → Elt Ideal .f32) (k : ℕ) (L : List (View.Piece (Elt Ideal) S51200x64 .f32)) : Prop :=
  ∀ y : S51200x64.Idx, View.canon L y = if (y 0).val < k then G y else 0

theorem rowsSplit_zero (G : S51200x64.Idx → Elt Ideal .f32) (inb : ∀ a, (![0, 0] : Fin 2 → ℕ) a + S51200x64.size a ≤ S51200x64.size a)
    (w : Vec Ideal S51200x64 .f32) (hw : ∀ y, w y = 0) :
    RowsSplit G 0 [⟨Rect.unit (s := S51200x64) ![0, 0] S51200x64.size inb, w⟩] := by
  intro y
  rw [View.canon_unit_zero hz2, if_neg (Nat.not_lt_zero _)]
  exact hw y

-- The same while the rows from `off` on still hold the zero fill: the slice read back is zero there.
theorem rowsSplit_cons {sig : RefSig} {κ : Kind} {sp : Space} (v : View sig κ sp S51200x64 .f32)
    (G : S51200x64.Idx → Elt Ideal .f32) (off : ℕ)
    (inb : ∀ a, (![off, 0] : Fin 2 → ℕ) a + S2048x64.size a ≤ S51200x64.size a)
    (f : Vec Ideal S2048x64 .f32 → Vec Ideal S2048x64 .f32) (L : List (View.Piece (Elt Ideal) S51200x64 .f32))
    (hL : RowsSplit G off L)
    (hf : ∀ (P : Vec Ideal S2048x64 .f32) (j : Fin 2048) (d : Fin 64) (h : off + j.val < 51200), P (ix2 j d) = 0 →
      f P (ix2 j d) = G (ix2 (⟨off + j.val, h⟩ : Fin 51200) d)) :
    RowsSplit G (off + 2048)
      (⟨Rect.unit (s := S51200x64) ![off, 0] S2048x64.size inb,
        f (v.readCov L (Rect.unit (s := S51200x64) ![off, 0] S2048x64.size inb).toLoadRect)⟩ :: L) := by
  intro y
  have h51 : (y 0).val < 51200 := (y 0).isLt
  by_cases hlo : (y 0).val < off
  · rw [View.canon_cons_of_not_mem (⟨Rect.unit (s := S51200x64) ![off, 0] S2048x64.size inb, f (v.readCov L (Rect.unit (s := S51200x64) ![off, 0] S2048x64.size inb).toLoadRect)⟩ : View.Piece (Elt Ideal) S51200x64 .f32) L (not_mem_slice off inb y (Or.inl hlo)), hL y, if_pos hlo, if_pos (by omega)]
  · by_cases hhi : (y 0).val < off + 2048
    · have hrow : off + ((y 0).val - off) < 51200 := by omega
      rw [if_pos hhi, eq_slice_emb off inb y (by omega) hhi, View.canon_cons_emb, slice_emb off inb _ _ hrow]
      refine hf _ _ _ hrow ?_
      rw [View.readCov_eq_canon']
      show View.canon L ((Rect.unit (s := S51200x64) ![off, 0] S2048x64.size inb).emb _) = 0
      rw [slice_emb off inb _ _ hrow, hL, if_neg]
      show ¬ off + ((y 0).val - off) < off
      omega
    · rw [View.canon_cons_of_not_mem (⟨Rect.unit (s := S51200x64) ![off, 0] S2048x64.size inb, f (v.readCov L (Rect.unit (s := S51200x64) ![off, 0] S2048x64.size inb).toLoadRect)⟩ : View.Piece (Elt Ideal) S51200x64 .f32) L (not_mem_slice off inb y (Or.inr (by omega))), hL y, if_neg hlo, if_neg hhi]

theorem contrib_sum (D : IVec S1280 32) (M : FVec Ideal S1280x64 .bf16) (X0 X1 : Vec Ideal S1280x1 .i32) (X2 : Vec Ideal S1280x1 .f32) (X3 : Vec Ideal S51200x64 .f32)
    (hD : ∀ e : Fin 1280, D (ix1 e) = X1 (ix2 e 0))
    (hM : ∀ (e : Fin 1280) (d : Fin 64), M (ix2 e d) = Cert.Spec.gath (fun n d => X3 (ix2 n d)) (X0 (ix2 e 0)) d * X2 (ix2 e 0))
    (row : ℕ) (h : row < 51200) (d : Fin 64) :
    ∑ e : Fin 1280, Cert.Spec.oh (D (ix1 e)) row * M (ix2 e d)
      = Cert.Spec.contrib (fun e => X0 (ix2 e 0)) (fun e => X1 (ix2 e 0)) (fun e => X2 (ix2 e 0)) (fun n d => X3 (ix2 n d)) ⟨row, h⟩ d := by
  unfold Cert.Spec.contrib
  refine Finset.sum_congr rfl fun e _ => ?_
  rw [hD e, hM e d]

-- `f` maps a slice's old contents to old + the block's contribution to rows off, off+1, …
def AddsContrib (X0 X1 : Vec Ideal S1280x1 .i32) (X2 : Vec Ideal S1280x1 .f32) (X3 : Vec Ideal S51200x64 .f32) (off : ℕ)
    (f : Vec Ideal S2048x64 .f32 → Vec Ideal S2048x64 .f32) : Prop :=
  ∀ (P : Vec Ideal S2048x64 .f32) (j : Fin 2048) (d : Fin 64) (h : off + j.val < 51200),
    f P (ix2 j d) = P (ix2 j d) + Cert.Spec.contrib (fun e => X0 (ix2 e 0)) (fun e => X1 (ix2 e 0)) (fun e => X2 (ix2 e 0)) (fun n d => X3 (ix2 n d)) ⟨off + j.val, h⟩ d

-- Every slice's store has that form: its sum runs over the block's destinations and messages.
theorem addsContrib_of {X0 X1 : Vec Ideal S1280x1 .i32} {X2 : Vec Ideal S1280x1 .f32} {X3 : Vec Ideal S51200x64 .f32} (off : ℕ) {f : Vec Ideal S2048x64 .f32 → Vec Ideal S2048x64 .f32}
    (hs : ∀ (P : Vec Ideal S2048x64 .f32) (j : Fin 2048) (d : Fin 64),
      f P (ix2 j d) = P (ix2 j d) + ∑ e : Fin 1280, Cert.Spec.oh (k0_pay3 X1 (ix1 e)) (off + j.val) * msg X0 X2 X3 (ix2 e d)) :
    AddsContrib X0 X1 X2 X3 off f := fun P j d h =>
  (hs P j d).trans (congrArg (fun t => P (ix2 j d) + t)
    (contrib_sum (k0_pay3 X1) (msg X0 X2 X3) X0 X1 X2 X3 (fun e => col_to_vec X1 e) (fun e d => msg_apply X0 X2 X3 e d) (off + j.val) h d))

def accB (X0 X1 : Vec Ideal S1280x1 .i32) (X2 : Vec Ideal S1280x1 .f32) (X3 : Vec Ideal S51200x64 .f32) (XS : Vec Ideal S51200x64 .f32) : S51200x64.Idx → Elt Ideal .f32 :=
  fun y => XS y + Cert.Spec.contrib (fun e => X0 (ix2 e 0)) (fun e => X1 (ix2 e 0)) (fun e => X2 (ix2 e 0)) (fun n d => X3 (ix2 n d)) (y 0) (y 1)

theorem accB_apply (X0 X1 : Vec Ideal S1280x1 .i32) (X2 : Vec Ideal S1280x1 .f32) (X3 : Vec Ideal S51200x64 .f32) (XS : Vec Ideal S51200x64 .f32) (n : Fin 51200) (d : Fin 64) :
    accB X0 X1 X2 X3 XS (ix2 n d) = XS (ix2 n d) + Cert.Spec.contrib (fun e => X0 (ix2 e 0)) (fun e => X1 (ix2 e 0)) (fun e => X2 (ix2 e 0)) (fun n d => X3 (ix2 n d)) n d := rfl

theorem stepB {X0 X1 : Vec Ideal S1280x1 .i32} {X2 : Vec Ideal S1280x1 .f32} {X3 : Vec Ideal S51200x64 .f32} {XS : Vec Ideal S51200x64 .f32} {off : ℕ}
    {f : Vec Ideal S2048x64 .f32 → Vec Ideal S2048x64 .f32} (hf : AddsContrib X0 X1 X2 X3 off f)
    (inb : ∀ a, (![off, 0] : Fin 2 → ℕ) a + S2048x64.size a ≤ S51200x64.size a)
    {L : List (View.Piece (Elt Ideal) S51200x64 .f32)} (hL : RowsBelow (accB X0 X1 X2 X3 XS) off L) :
    RowsBelow (accB X0 X1 X2 X3 XS) (off + 2048)
      (⟨Rect.unit (s := S51200x64) ![off, 0] S2048x64.size inb, f (View.ld XS (Rect.unit (s := S51200x64) ![off, 0] S2048x64.size inb))⟩ :: L) :=
  rowsBelow_cons _ off inb _ L hL fun j d h => by rw [accB_apply, hf _ j d h, ld_slice XS off inb j d h]

set_option maxHeartbeats 4000000 in

-- A later point: the 25 stores leave old + contribution in every row.
theorem accB_run (hc0 : ¬cond0 i) (x0 x1 : Vec Ideal S1280x1 .i32) (x2 : Vec Ideal S1280x1 .f32) (x3 xs0 : Vec Ideal S51200x64 .f32) :
    RowsBelow (accB (View.readAt (Elt Ideal) arg1.view rE.toLoadRect (harg1.unread x0)) (View.readAt (Elt Ideal) arg2.view rE.toLoadRect (harg2.unread x1)) (View.readAt (Elt Ideal) arg3.view rE.toLoadRect (harg3.unread x2)) (arg4.view.read (Elt Ideal) (harg4.unread x3)) (arg6.view.read (Elt Ideal) (harg6.unread xs0))) 51200
      (kernelRun0_B (F := Ideal) c i arg1 harg1 arg2 harg2 arg3 harg3 arg4 harg4 arg5 harg5 arg6 harg6 hc0 x0 x1 x2 x3 xs0).2.1 := by
  unfold kernelRun0_B
  dsimp only
  refine stepB (addsContrib_of 49152 (slice24_apply _ _)) inb_S51200x64_S2048x64_49152_0 ?_
  refine stepB (addsContrib_of 47104 (slice23_apply _ _)) inb_S51200x64_S2048x64_47104_0 ?_
  refine stepB (addsContrib_of 45056 (slice22_apply _ _)) inb_S51200x64_S2048x64_45056_0 ?_
  refine stepB (addsContrib_of 43008 (slice21_apply _ _)) inb_S51200x64_S2048x64_43008_0 ?_
  refine stepB (addsContrib_of 40960 (slice20_apply _ _)) inb_S51200x64_S2048x64_40960_0 ?_
  refine stepB (addsContrib_of 38912 (slice19_apply _ _)) inb_S51200x64_S2048x64_38912_0 ?_
  refine stepB (addsContrib_of 36864 (slice18_apply _ _)) inb_S51200x64_S2048x64_36864_0 ?_
  refine stepB (addsContrib_of 34816 (slice17_apply _ _)) inb_S51200x64_S2048x64_34816_0 ?_
  refine stepB (addsContrib_of 32768 (slice16_apply _ _)) inb_S51200x64_S2048x64_32768_0 ?_
  refine stepB (addsContrib_of 30720 (slice15_apply _ _)) inb_S51200x64_S2048x64_30720_0 ?_
  refine stepB (addsContrib_of 28672 (slice14_apply _ _)) inb_S51200x64_S2048x64_28672_0 ?_
  refine stepB (addsContrib_of 26624 (slice13_apply _ _)) inb_S51200x64_S2048x64_26624_0 ?_
  refine stepB (addsContrib_of 24576 (slice12_apply _ _)) inb_S51200x64_S2048x64_24576_0 ?_
  refine stepB (addsContrib_of 22528 (slice11_apply _ _)) inb_S51200x64_S2048x64_22528_0 ?_
  refine stepB (addsContrib_of 20480 (slice10_apply _ _)) inb_S51200x64_S2048x64_20480_0 ?_
  refine stepB (addsContrib_of 18432 (slice9_apply _ _)) inb_S51200x64_S2048x64_18432_0 ?_
  refine stepB (addsContrib_of 16384 (slice8_apply _ _)) inb_S51200x64_S2048x64_16384_0 ?_
  refine stepB (addsContrib_of 14336 (slice7_apply _ _)) inb_S51200x64_S2048x64_14336_0 ?_
  refine stepB (addsContrib_of 12288 (slice6_apply _ _)) inb_S51200x64_S2048x64_12288_0 ?_
  refine stepB (addsContrib_of 10240 (slice5_apply _ _)) inb_S51200x64_S2048x64_10240_0 ?_
  refine stepB (addsContrib_of 8192 (slice4_apply _ _)) inb_S51200x64_S2048x64_8192_0 ?_
  refine stepB (addsContrib_of 6144 (slice3_apply _ _)) inb_S51200x64_S2048x64_6144_0 ?_
  refine stepB (addsContrib_of 4096 (slice2_apply _ _)) inb_S51200x64_S2048x64_4096_0 ?_
  refine stepB (addsContrib_of 2048 (slice1_apply _ _ _ _ _ _ _)) inb_S51200x64_S2048x64_2048_0 ?_
  refine stepB (addsContrib_of 0 (slice0_apply _ _ _ _ _ _ _)) inb_S51200x64_S2048x64_0_0 ?_
  exact rowsBelow_nil _ _

theorem k0_pay1_apply (y : S51200x64.Idx) : k0_pay1 (F := Ideal) y = 0 := by
  unfold k0_pay1
  rw [shapeCast_self]
  exact Ideal.ofBits_zero_f32

def accA (X0 X1 : Vec Ideal S1280x1 .i32) (X2 : Vec Ideal S1280x1 .f32) (X3 : Vec Ideal S51200x64 .f32) : S51200x64.Idx → Elt Ideal .f32 :=
  fun y => Cert.Spec.contrib (fun e => X0 (ix2 e 0)) (fun e => X1 (ix2 e 0)) (fun e => X2 (ix2 e 0)) (fun n d => X3 (ix2 n d)) (y 0) (y 1)

theorem accA_apply (X0 X1 : Vec Ideal S1280x1 .i32) (X2 : Vec Ideal S1280x1 .f32) (X3 : Vec Ideal S51200x64 .f32) (n : Fin 51200) (d : Fin 64) :
    accA X0 X1 X2 X3 (ix2 n d) = Cert.Spec.contrib (fun e => X0 (ix2 e 0)) (fun e => X1 (ix2 e 0)) (fun e => X2 (ix2 e 0)) (fun n d => X3 (ix2 n d)) n d := rfl

theorem stepA {sig' : RefSig} {κ : Kind} {sp : Space} (v : View sig' κ sp S51200x64 .f32) {X0 X1 : Vec Ideal S1280x1 .i32} {X2 : Vec Ideal S1280x1 .f32} {X3 : Vec Ideal S51200x64 .f32} {off : ℕ}
    {f : Vec Ideal S2048x64 .f32 → Vec Ideal S2048x64 .f32} (hf : AddsContrib X0 X1 X2 X3 off f)
    (inb : ∀ a, (![off, 0] : Fin 2 → ℕ) a + S2048x64.size a ≤ S51200x64.size a)
    {L : List (View.Piece (Elt Ideal) S51200x64 .f32)} (hL : RowsSplit (accA X0 X1 X2 X3) off L) :
    RowsSplit (accA X0 X1 X2 X3) (off + 2048)
      (⟨Rect.unit (s := S51200x64) ![off, 0] S2048x64.size inb, f (v.readCov L (Rect.unit (s := S51200x64) ![off, 0] S2048x64.size inb).toLoadRect)⟩ :: L) :=
  rowsSplit_cons v _ off inb f L hL fun P j d h hP => by rw [accA_apply, hf P j d h, hP, zero_add]

set_option maxHeartbeats 4000000 in

-- The first point: the zero fill, then the 25 stores, leave the contribution alone.
theorem accA_run (hc0 : cond0 i) (x0 x1 : Vec Ideal S1280x1 .i32) (x2 : Vec Ideal S1280x1 .f32) (x3 : Vec Ideal S51200x64 .f32) :
    RowsSplit (accA (View.readAt (Elt Ideal) arg1.view rE.toLoadRect (harg1.unread x0)) (View.readAt (Elt Ideal) arg2.view rE.toLoadRect (harg2.unread x1)) (View.readAt (Elt Ideal) arg3.view rE.toLoadRect (harg3.unread x2)) (arg4.view.read (Elt Ideal) (harg4.unread x3))) 51200
      (kernelRun0_A (F := Ideal) c i arg1 harg1 arg2 harg2 arg3 harg3 arg4 harg4 arg5 harg5 arg6 harg6 hc0 x0 x1 x2 x3).2.1 := by
  unfold kernelRun0_A
  dsimp only
  refine stepA arg6.view (addsContrib_of 49152 (slice24_apply _ _)) inb_S51200x64_S2048x64_49152_0 ?_
  refine stepA arg6.view (addsContrib_of 47104 (slice23_apply _ _)) inb_S51200x64_S2048x64_47104_0 ?_
  refine stepA arg6.view (addsContrib_of 45056 (slice22_apply _ _)) inb_S51200x64_S2048x64_45056_0 ?_
  refine stepA arg6.view (addsContrib_of 43008 (slice21_apply _ _)) inb_S51200x64_S2048x64_43008_0 ?_
  refine stepA arg6.view (addsContrib_of 40960 (slice20_apply _ _)) inb_S51200x64_S2048x64_40960_0 ?_
  refine stepA arg6.view (addsContrib_of 38912 (slice19_apply _ _)) inb_S51200x64_S2048x64_38912_0 ?_
  refine stepA arg6.view (addsContrib_of 36864 (slice18_apply _ _)) inb_S51200x64_S2048x64_36864_0 ?_
  refine stepA arg6.view (addsContrib_of 34816 (slice17_apply _ _)) inb_S51200x64_S2048x64_34816_0 ?_
  refine stepA arg6.view (addsContrib_of 32768 (slice16_apply _ _)) inb_S51200x64_S2048x64_32768_0 ?_
  refine stepA arg6.view (addsContrib_of 30720 (slice15_apply _ _)) inb_S51200x64_S2048x64_30720_0 ?_
  refine stepA arg6.view (addsContrib_of 28672 (slice14_apply _ _)) inb_S51200x64_S2048x64_28672_0 ?_
  refine stepA arg6.view (addsContrib_of 26624 (slice13_apply _ _)) inb_S51200x64_S2048x64_26624_0 ?_
  refine stepA arg6.view (addsContrib_of 24576 (slice12_apply _ _)) inb_S51200x64_S2048x64_24576_0 ?_
  refine stepA arg6.view (addsContrib_of 22528 (slice11_apply _ _)) inb_S51200x64_S2048x64_22528_0 ?_
  refine stepA arg6.view (addsContrib_of 20480 (slice10_apply _ _)) inb_S51200x64_S2048x64_20480_0 ?_
  refine stepA arg6.view (addsContrib_of 18432 (slice9_apply _ _)) inb_S51200x64_S2048x64_18432_0 ?_
  refine stepA arg6.view (addsContrib_of 16384 (slice8_apply _ _)) inb_S51200x64_S2048x64_16384_0 ?_
  refine stepA arg6.view (addsContrib_of 14336 (slice7_apply _ _)) inb_S51200x64_S2048x64_14336_0 ?_
  refine stepA arg6.view (addsContrib_of 12288 (slice6_apply _ _)) inb_S51200x64_S2048x64_12288_0 ?_
  refine stepA arg6.view (addsContrib_of 10240 (slice5_apply _ _)) inb_S51200x64_S2048x64_10240_0 ?_
  refine stepA arg6.view (addsContrib_of 8192 (slice4_apply _ _)) inb_S51200x64_S2048x64_8192_0 ?_
  refine stepA arg6.view (addsContrib_of 6144 (slice3_apply _ _)) inb_S51200x64_S2048x64_6144_0 ?_
  refine stepA arg6.view (addsContrib_of 4096 (slice2_apply _ _)) inb_S51200x64_S2048x64_4096_0 ?_
  refine stepA arg6.view (addsContrib_of 2048 (slice1_apply _ _ _ _ _ _ _)) inb_S51200x64_S2048x64_2048_0 ?_
  refine stepA arg6.view (addsContrib_of 0 (slice0_apply _ _ _ _ _ _ _)) inb_S51200x64_S2048x64_0_0 ?_
  exact rowsSplit_zero _ _ (k0_pay1 (F := Ideal)) k0_pay1_apply

end R0Pieces

open R0Pieces

-- Stated for any view of the buffer: only the list of stored pieces matters.
theorem sout0_B_apply (hc0 : ¬cond0 i) (x0 x1 : Vec Ideal S1280x1 .i32) (x2 : Vec Ideal S1280x1 .f32) (x3 xs0 : Vec Ideal S51200x64 .f32) (n : Fin 51200) (d : Fin 64) :
    sout0_B (F := Ideal) VS c i arg1 harg1 arg2 harg2 arg3 harg3 arg4 harg4 arg5 harg5 arg6 harg6 hc0 x0 x1 x2 x3 xs0 (ix2 n d)
      = xs0 (ix2 n d) + Cert.Spec.contrib (fun e => x0 (ix2 e 0)) (fun e => x1 (ix2 e 0)) (fun e => x2 (ix2 e 0)) (fun n d => x3 (ix2 n d)) n d := by
  have h := accB_run c i arg1 harg1 arg2 harg2 arg3 harg3 arg4 harg4 arg5 harg5 arg6 harg6 hc0 x0 x1 x2 x3 xs0
  simp only [View.readAt_eq_ld, harg1.read_unread, harg2.read_unread, harg3.read_unread, harg4.read_unread, harg6.read_unread, View.ld_unit_zero (S := S1280x1) hz2] at h
  unfold sout0_B
  rw [View.read_writes_junk_eq_canon]
  exact (h (ix2 n d) n.isLt).trans (accB_apply x0 x1 x2 x3 xs0 n d)

theorem sout0_A_apply (hc0 : cond0 i) (x0 x1 : Vec Ideal S1280x1 .i32) (x2 : Vec Ideal S1280x1 .f32) (x3 : Vec Ideal S51200x64 .f32) (n : Fin 51200) (d : Fin 64) :
    sout0_A (F := Ideal) VS c i arg1 harg1 arg2 harg2 arg3 harg3 arg4 harg4 arg5 harg5 arg6 harg6 hc0 x0 x1 x2 x3 (ix2 n d)
      = Cert.Spec.contrib (fun e => x0 (ix2 e 0)) (fun e => x1 (ix2 e 0)) (fun e => x2 (ix2 e 0)) (fun n d => x3 (ix2 n d)) n d := by
  have h := accA_run c i arg1 harg1 arg2 harg2 arg3 harg3 arg4 harg4 arg5 harg5 arg6 harg6 hc0 x0 x1 x2 x3
  simp only [View.readAt_eq_ld, harg1.read_unread, harg2.read_unread, harg3.read_unread, harg4.read_unread, View.ld_unit_zero (S := S1280x1) hz2] at h
  unfold sout0_A
  rw [View.read_writes_junk_eq_canon]
  exact ((h (ix2 n d)).trans (if_pos n.isLt)).trans (accA_apply x0 x1 x2 x3 n d)

theorem out0_B_eq (hc0 : ¬cond0 i) (x0 x1 : Vec Ideal S1280x1 .i32) (x2 : Vec Ideal S1280x1 .f32) (x3 xs0 : Vec Ideal S51200x64 .f32) :
    out0_B (F := Ideal) VO c i arg1 harg1 arg2 harg2 arg3 harg3 arg4 harg4 arg5 harg5 arg6 harg6 hc0 x0 x1 x2 x3 xs0 = sout0_B (F := Ideal) VS c i arg1 harg1 arg2 harg2 arg3 harg3 arg4 harg4 arg5 harg5 arg6 harg6 hc0 x0 x1 x2 x3 xs0 := by
  unfold out0_B sout0_B
  rw [View.read_writes_junk_eq_canon, View.read_writes_junk_eq_canon]
  unfold kernelRun0_B
  dsimp only
  rw [View.canon_unit_zero hz2]
  refine (View.readCov_eq_canon' arg6.view _ _).trans ?_
  exact View.ld_unit_zero hz2 inb_S51200x64_S51200x64_0_0 (View.canon _)

theorem out0_A_eq (hc0 : cond0 i) (x0 x1 : Vec Ideal S1280x1 .i32) (x2 : Vec Ideal S1280x1 .f32) (x3 : Vec Ideal S51200x64 .f32) :
    out0_A (F := Ideal) VO c i arg1 harg1 arg2 harg2 arg3 harg3 arg4 harg4 arg5 harg5 arg6 harg6 hc0 x0 x1 x2 x3 = sout0_A (F := Ideal) VS c i arg1 harg1 arg2 harg2 arg3 harg3 arg4 harg4 arg5 harg5 arg6 harg6 hc0 x0 x1 x2 x3 := by
  unfold out0_A sout0_A
  rw [View.read_writes_junk_eq_canon, View.read_writes_junk_eq_canon]
  unfold kernelRun0_A
  dsimp only
  rw [View.canon_unit_zero hz2]
  refine (View.readCov_eq_canon' arg6.view _ _).trans ?_
  exact View.ld_unit_zero hz2 inb_S51200x64_S51200x64_0_0 (View.canon _)

end Cert.KernelIdeal.Hand

end
-- ==== Proof.KernelIdealR0Acc.lean ====
import proofs.«418351_j72971494359151_1_alg».proof.Proof.KernelIdealR0Body
import proofs.«418351_j72971494359151_1_alg».proof.Proof.KernelIdealR0Pieces
import proofs.«418351_j72971494359151_1_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

section
variable (V : (c : Dev nD) → (b : Ref sig .tc) → Buf (Elt Ideal) ((c : Thread nD τ).loc b))

abbrev srcOf (c : Dev nD) : Fin 800000 → BitVec 32 := fun e => (V c main_v30 : Vec Ideal S800000x1 .i32) (ValueIdx.ix2 e 0)

abbrev dstOf (c : Dev nD) : Fin 800000 → BitVec 32 := fun e => (V c main_v31 : Vec Ideal S800000x1 .i32) (ValueIdx.ix2 e 0)

abbrev wOf (c : Dev nD) : Fin 800000 → EReal := fun e => (V c main_v32 : Vec Ideal S800000x1 .f32) (ValueIdx.ix2 e 0)

abbrev tabOf (c : Dev nD) : Fin 51200 → Fin 64 → EReal := fun n d => (V c main_v33 : Vec Ideal S51200x64 .f32) (ValueIdx.ix2 n d)

theorem idx0_0 : ∀ t : Fin cfg0.N, win0_0.index t 0 = t.val ∧ win0_0.index t 1 = 0 :=
  (by decide +kernel : ∀ t : Fin grid0.N, win0_0.index t 0 = t.val ∧ win0_0.index t 1 = 0)
theorem idx0_1 : ∀ t : Fin cfg0.N, win0_1.index t 0 = t.val ∧ win0_1.index t 1 = 0 :=
  (by decide +kernel : ∀ t : Fin grid0.N, win0_1.index t 0 = t.val ∧ win0_1.index t 1 = 0)
theorem idx0_2 : ∀ t : Fin cfg0.N, win0_2.index t 0 = t.val ∧ win0_2.index t 1 = 0 :=
  (by decide +kernel : ∀ t : Fin grid0.N, win0_2.index t 0 = t.val ∧ win0_2.index t 1 = 0)
theorem idx0_3 : ∀ t : Fin cfg0.N, win0_3.index t 0 = 0 ∧ win0_3.index t 1 = 0 :=
  (by decide +kernel : ∀ t : Fin grid0.N, win0_3.index t 0 = 0 ∧ win0_3.index t 1 = 0)
theorem idx0_4 : ∀ t : Fin cfg0.N, win0_4.index t 0 = 0 ∧ win0_4.index t 1 = 0 :=
  (by decide +kernel : ∀ t : Fin grid0.N, win0_4.index t 0 = 0 ∧ win0_4.index t 1 = 0)

-- Slot e of the block at point t is edge 1280·t + e.
theorem iblk0_0_apply (c : Dev nD) (t : Fin cfg0.N) (e : Fin 1280) :
    (iblk0 (F := Ideal) V c 0 t : Vec Ideal S1280x1 .i32) (ValueIdx.ix2 e 0) = srcOf V c (Cert.Spec.edgeIx t.val e) := by
  have hi := idx0_0 t
  have hN : cfg0.N = 625 := N_0
  have ht := t.isLt
  have he := e.isLt
  unfold iblk0
  rw [View.read_apply]
  show V c main_v30 _ = V c main_v30 _
  congr 1
  funext a
  apply Fin.ext
  match a with
  | ⟨0, _⟩ => show win0_0.index t 0 * 1280 + 1 * e.val = (1280 * t.val + e.val) % 800000; rw [hi.1]; omega
  | ⟨1, _⟩ => show win0_0.index t 1 * 1 + 1 * 0 = 0; rw [hi.2]

theorem iblk0_1_apply (c : Dev nD) (t : Fin cfg0.N) (e : Fin 1280) :
    (iblk0 (F := Ideal) V c 1 t : Vec Ideal S1280x1 .i32) (ValueIdx.ix2 e 0) = dstOf V c (Cert.Spec.edgeIx t.val e) := by
  have hi := idx0_1 t
  have hN : cfg0.N = 625 := N_0
  have ht := t.isLt
  have he := e.isLt
  unfold iblk0
  rw [View.read_apply]
  show V c main_v31 _ = V c main_v31 _
  congr 1
  funext a
  apply Fin.ext
  match a with
  | ⟨0, _⟩ => show win0_1.index t 0 * 1280 + 1 * e.val = (1280 * t.val + e.val) % 800000; rw [hi.1]; omega
  | ⟨1, _⟩ => show win0_1.index t 1 * 1 + 1 * 0 = 0; rw [hi.2]

theorem iblk0_2_apply (c : Dev nD) (t : Fin cfg0.N) (e : Fin 1280) :
    (iblk0 (F := Ideal) V c 2 t : Vec Ideal S1280x1 .f32) (ValueIdx.ix2 e 0) = wOf V c (Cert.Spec.edgeIx t.val e) := by
  have hi := idx0_2 t
  have hN : cfg0.N = 625 := N_0
  have ht := t.isLt
  have he := e.isLt
  unfold iblk0
  rw [View.read_apply]
  show V c main_v32 _ = V c main_v32 _
  congr 1
  funext a
  apply Fin.ext
  match a with
  | ⟨0, _⟩ => show win0_2.index t 0 * 1280 + 1 * e.val = (1280 * t.val + e.val) % 800000; rw [hi.1]; omega
  | ⟨1, _⟩ => show win0_2.index t 1 * 1 + 1 * 0 = 0; rw [hi.2]

theorem iblk0_3_apply (c : Dev nD) (t : Fin cfg0.N) (n : Fin 51200) (d : Fin 64) :
    (iblk0 (F := Ideal) V c 3 t : Vec Ideal S51200x64 .f32) (ValueIdx.ix2 n d) = tabOf V c n d := by
  have hi := idx0_3 t
  unfold iblk0
  rw [View.read_apply]
  show V c main_v33 _ = V c main_v33 _
  congr 1
  funext a
  apply Fin.ext
  match a with
  | ⟨0, _⟩ => show win0_3.index t 0 * 51200 + 1 * n.val = n.val; rw [hi.1]; omega
  | ⟨1, _⟩ => show win0_3.index t 1 * 64 + 1 * d.val = d.val; rw [hi.2]; omega
theorem iblk0_3_eq (c : Dev nD) (t : Fin cfg0.N) :
    (iblk0 (F := Ideal) V c 3 t : Vec Ideal S51200x64 .f32) = (V c main_v33 : Vec Ideal S51200x64 .f32) :=
  funext fun i => by
    obtain ⟨n, d, rfl⟩ : ∃ (n : Fin 51200) (d : Fin 64), i = ValueIdx.ix2 n d := ⟨i 0, i 1, ValueIdx.eq_ix2 i⟩
    exact iblk0_3_apply V c t n d

theorem contrib_iblk0 (c : Dev nD) (t : Fin cfg0.N) (n : Fin 51200) (d : Fin 64) :
    Cert.Spec.contrib (fun e => (iblk0 (F := Ideal) V c 0 t : Vec Ideal S1280x1 .i32) (ValueIdx.ix2 e 0))
        (fun e => (iblk0 (F := Ideal) V c 1 t : Vec Ideal S1280x1 .i32) (ValueIdx.ix2 e 0))
        (fun e => (iblk0 (F := Ideal) V c 2 t : Vec Ideal S1280x1 .f32) (ValueIdx.ix2 e 0))
        (fun n d => (iblk0 (F := Ideal) V c 3 t : Vec Ideal S51200x64 .f32) (ValueIdx.ix2 n d)) n d
      = Cert.Spec.contrib (Cert.Spec.blkOf (srcOf V c) t.val) (Cert.Spec.blkOf (dstOf V c) t.val)
          (Cert.Spec.blkOf (wOf V c) t.val) (tabOf V c) n d := by
  have e0 : (fun e => (iblk0 (F := Ideal) V c 0 t : Vec Ideal S1280x1 .i32) (ValueIdx.ix2 e 0)) = Cert.Spec.blkOf (srcOf V c) t.val :=
    funext fun e => iblk0_0_apply V c t e
  have e1 : (fun e => (iblk0 (F := Ideal) V c 1 t : Vec Ideal S1280x1 .i32) (ValueIdx.ix2 e 0)) = Cert.Spec.blkOf (dstOf V c) t.val :=
    funext fun e => iblk0_1_apply V c t e
  have e2 : (fun e => (iblk0 (F := Ideal) V c 2 t : Vec Ideal S1280x1 .f32) (ValueIdx.ix2 e 0)) = Cert.Spec.blkOf (wOf V c) t.val :=
    funext fun e => iblk0_2_apply V c t e
  have e3 : (fun n d => (iblk0 (F := Ideal) V c 3 t : Vec Ideal S51200x64 .f32) (ValueIdx.ix2 n d)) = tabOf V c :=
    funext fun n => funext fun d => iblk0_3_apply V c t n d
  rw [e0, e1, e2, e3]
end

section
variable (V : (c : Dev nD) → (b : Ref sig .tc) → Buf (Elt Ideal) ((c : Thread nD τ).loc b))

theorem outs0_fst_eq_snd (c : Dev nD) (t : ℕ) (ht : t < cfg0.N) :
    (outsAt0 (F := Ideal) V c t ht).1 = (outsAt0 (F := Ideal) V c t ht).2 := by
  cases t with
  | zero =>
    rw [outsAt0_A V c ⟨0, ht⟩ rfl]
    dsimp only
    exact out0_A_eq VO0 VS0 c (grid0.coords ⟨0, ht⟩) (ms0_0 ⟨0, ht⟩) (hs0_0 ⟨0, ht⟩) (ms0_1 ⟨0, ht⟩) (hs0_1 ⟨0, ht⟩) (ms0_2 ⟨0, ht⟩) (hs0_2 ⟨0, ht⟩) (ms0_3 ⟨0, ht⟩) (hs0_3 ⟨0, ht⟩) (ms0_4 ⟨0, ht⟩) (hs0_4 ⟨0, ht⟩) scM0 (Memref.isWhole_whole _) ((hcond0 ⟨0, ht⟩).mpr rfl) (iblk0 V c 0 ⟨0, ht⟩) (iblk0 V c 1 ⟨0, ht⟩) (iblk0 V c 2 ⟨0, ht⟩) (iblk0 V c 3 ⟨0, ht⟩)
  | succ k =>
    rw [outsAt0_B V c ⟨k + 1, ht⟩ (Nat.succ_ne_zero k)]
    dsimp only
    exact out0_B_eq VO0 VS0 c (grid0.coords ⟨k + 1, ht⟩) (ms0_0 ⟨k + 1, ht⟩) (hs0_0 ⟨k + 1, ht⟩) (ms0_1 ⟨k + 1, ht⟩) (hs0_1 ⟨k + 1, ht⟩) (ms0_2 ⟨k + 1, ht⟩) (hs0_2 ⟨k + 1, ht⟩) (ms0_3 ⟨k + 1, ht⟩) (hs0_3 ⟨k + 1, ht⟩) (ms0_4 ⟨k + 1, ht⟩) (hs0_4 ⟨k + 1, ht⟩) scM0 (Memref.isWhole_whole _) (fun h => Nat.succ_ne_zero k ((hcond0 ⟨k + 1, ht⟩).mp h)) (iblk0 V c 0 ⟨k + 1, ht⟩) (iblk0 V c 1 ⟨k + 1, ht⟩) (iblk0 V c 2 ⟨k + 1, ht⟩) (iblk0 V c 3 ⟨k + 1, ht⟩) (outsAt0 V c k (Nat.lt_of_succ_lt ht)).2

-- Induction on the point: the accumulator after point t is the sum of the contributions of blocks 0 … t.
theorem acc0_apply (c : Dev nD) (t : ℕ) (ht : t < cfg0.N) (n : Fin 51200) (d : Fin 64) :
    (outsAt0 (F := Ideal) V c t ht).2 (ValueIdx.ix2 n d)
      = Cert.Spec.accAt (srcOf V c) (dstOf V c) (wOf V c) (tabOf V c) t n d := by
  induction t generalizing n d with
  | zero =>
    rw [outsAt0_A V c ⟨0, ht⟩ rfl]
    dsimp only
    refine (sout0_A_apply VS0 c (grid0.coords ⟨0, ht⟩) (ms0_0 ⟨0, ht⟩) (hs0_0 ⟨0, ht⟩) (ms0_1 ⟨0, ht⟩) (hs0_1 ⟨0, ht⟩) (ms0_2 ⟨0, ht⟩) (hs0_2 ⟨0, ht⟩) (ms0_3 ⟨0, ht⟩) (hs0_3 ⟨0, ht⟩) (ms0_4 ⟨0, ht⟩) (hs0_4 ⟨0, ht⟩) scM0 (Memref.isWhole_whole _) ((hcond0 ⟨0, ht⟩).mpr rfl) (iblk0 V c 0 ⟨0, ht⟩) (iblk0 V c 1 ⟨0, ht⟩) (iblk0 V c 2 ⟨0, ht⟩) (iblk0 V c 3 ⟨0, ht⟩) n d).trans ?_
    exact contrib_iblk0 V c ⟨0, ht⟩ n d
  | succ k ih =>
    rw [outsAt0_B V c ⟨k + 1, ht⟩ (Nat.succ_ne_zero k)]
    dsimp only
    refine (sout0_B_apply VS0 c (grid0.coords ⟨k + 1, ht⟩) (ms0_0 ⟨k + 1, ht⟩) (hs0_0 ⟨k + 1, ht⟩) (ms0_1 ⟨k + 1, ht⟩) (hs0_1 ⟨k + 1, ht⟩) (ms0_2 ⟨k + 1, ht⟩) (hs0_2 ⟨k + 1, ht⟩) (ms0_3 ⟨k + 1, ht⟩) (hs0_3 ⟨k + 1, ht⟩) (ms0_4 ⟨k + 1, ht⟩) (hs0_4 ⟨k + 1, ht⟩) scM0 (Memref.isWhole_whole _) (fun h => Nat.succ_ne_zero k ((hcond0 ⟨k + 1, ht⟩).mp h)) (iblk0 V c 0 ⟨k + 1, ht⟩) (iblk0 V c 1 ⟨k + 1, ht⟩) (iblk0 V c 2 ⟨k + 1, ht⟩) (iblk0 V c 3 ⟨k + 1, ht⟩) (outsAt0 V c k (Nat.lt_of_succ_lt ht)).2 n d).trans ?_
    rw [ih (Nat.lt_of_succ_lt ht) n d, contrib_iblk0 V c ⟨k + 1, ht⟩ n d]
    rfl

theorem out0_apply (c : Dev nD) (t : ℕ) (ht : t < cfg0.N) (n : Fin 51200) (d : Fin 64) :
    (outsAt0 (F := Ideal) V c t ht).1 (ValueIdx.ix2 n d)
      = Cert.Spec.accAt (srcOf V c) (dstOf V c) (wOf V c) (tabOf V c) t n d := by
  rw [outs0_fst_eq_snd V c t ht]
  exact acc0_apply V c t ht n d

abbrev resOf (c : Dev nD) : Vec Ideal S51200x64 .f32 :=
  fun i => Cert.Spec.propPad (srcOf V c) (dstOf V c) (wOf V c) (tabOf V c) (i 0) (i 1)

theorem out0_last (c : Dev nD) (t : Fin cfg0.N) (h : t.val = 624) :
    (outsAt0 (F := Ideal) V c t.val t.isLt).1 = resOf V c :=
  funext fun i => by
    obtain ⟨n, d, rfl⟩ : ∃ (n : Fin 51200) (d : Fin 64), i = ValueIdx.ix2 n d := ⟨i 0, i 1, ValueIdx.eq_ix2 i⟩
    rw [out0_apply V c t.val t.isLt n d, h]
    rfl

theorem flushed0_4_eq (c : Dev nD) (t : Fin cfg0.N) (hf : (cfg0.win 4).flush t = true) :
    (dat0 (F := Ideal) V c).flushed 4 t = ((cfg0.win 4).blk t).view.read (Elt Ideal) (resOf V c) := by
  have hN : cfg0.N = 625 := N_0
  have h3 : t.val = 624 := by have := (flush0_4 t).mp hf; have := t.isLt; omega
  have hi := idx0_4 t
  show (cfg0.win 4).cut (grid0.coords t) ((dat0 (F := Ideal) V c).after 4 t) = _
  rw [after0_4, out0_last V c t h3]
  have hz' : (fun a => win0_4.index t a * main_v34.ty.shape.size a) = fun _ => 0 := funext fun a => by
    match a with
    | ⟨0, _⟩ => show win0_4.index t 0 * _ = 0; rw [hi.1, Nat.zero_mul]
    | ⟨1, _⟩ => show win0_4.index t 1 * _ = 0; rw [hi.2, Nat.zero_mul]
  exact (Memref.read_access_unit_zero (Elt Ideal) main_v34 hz' (fun a => by rw [congrFun hz' a]; simp) (resOf V c)).symm

abbrev tLast0 : Fin cfg0.N := ⟨624, by rw [show cfg0.N = 625 from N_0]; decide⟩

-- The single write-back, after the last point, covers the whole array.
theorem arr0_4_final (c : Dev nD) : (dat0 (F := Ideal) V c).arrAt 4 cfg0.N = resOf V c :=
  (dat0 (F := Ideal) V c).arrAt_eq_of_cover 4 (resOf V c) (flushed0_4_eq V c) fun i =>
    ⟨tLast0, (flush0_4 tLast0).mpr rfl, by
      show i ∈ ((View.whole main_v34).slice (win0_4.rect tLast0)).set
      rw [View.set_slice_whole, Rect.mem_set_unit]
      intro a
      have h0 : (i 0 : Nat) < 51200 := (i 0).isLt
      have h1 : (i 1 : Nat) < 64 := (i 1).isLt
      match a with
      | ⟨0, _⟩ => show win0_4.index tLast0 0 * win0_4.size 0 ≤ (i 0 : Nat) ∧ (i 0 : Nat) < win0_4.index tLast0 0 * win0_4.size 0 + win0_4.xsize (grid0.coords tLast0) 0
                  rw [show win0_4.index tLast0 0 * win0_4.size 0 = 0 from by decide +kernel, show win0_4.xsize (grid0.coords tLast0) 0 = 51200 from by decide +kernel]; omega
      | ⟨1, _⟩ => show win0_4.index tLast0 1 * win0_4.size 1 ≤ (i 1 : Nat) ∧ (i 1 : Nat) < win0_4.index tLast0 1 * win0_4.size 1 + win0_4.xsize (grid0.coords tLast0) 1
                  rw [show win0_4.index tLast0 1 * win0_4.size 1 = 0 from by decide +kernel, show win0_4.xsize (grid0.coords tLast0) 1 = 64 from by decide +kernel]; omega⟩

theorem region0_value (c : Dev nD) (n : Fin 51200) (d : Fin 64) :
    ((dat0 (F := Ideal) V c).arrAt 4 cfg0.N : Vec Ideal S51200x64 .f32) (ValueIdx.ix2 n d)
      = Cert.Spec.propPad (srcOf V c) (dstOf V c) (wOf V c) (tabOf V c) n d :=
  congrFun (arr0_4_final V c) (ValueIdx.ix2 n d)

theorem arr0_0_final (c : Dev nD) : (dat0 (F := Ideal) V c).arrAt 0 cfg0.N = V c main_v30 :=
  ((dat0 (F := Ideal) V c).arrAt_in 0 rfl _).trans (A_eq0 V c 0)
theorem arr0_1_final (c : Dev nD) : (dat0 (F := Ideal) V c).arrAt 1 cfg0.N = V c main_v31 :=
  ((dat0 (F := Ideal) V c).arrAt_in 1 rfl _).trans (A_eq0 V c 1)
theorem arr0_2_final (c : Dev nD) : (dat0 (F := Ideal) V c).arrAt 2 cfg0.N = V c main_v32 :=
  ((dat0 (F := Ideal) V c).arrAt_in 2 rfl _).trans (A_eq0 V c 2)
theorem arr0_3_final (c : Dev nD) : (dat0 (F := Ideal) V c).arrAt 3 cfg0.N = V c main_v33 :=
  ((dat0 (F := Ideal) V c).arrAt_in 3 rfl _).trans (A_eq0 V c 3)
end

end Cert.KernelIdeal.Hand

end
-- ==== Proof.KernelIdealR1Acc.lean ====
import proofs.«418351_j72971494359151_1_alg».proof.Proof.KernelIdealR1Body
import proofs.«418351_j72971494359151_1_alg».proof.Proof.KernelIdealR0Pieces
import proofs.«418351_j72971494359151_1_alg».proof.Proof.Spec
import Idealize.ShloMosaic.Lib.Pipeline.Value
import Idealize.ShloMosaic.Lib.ValueIdx

set_option maxRecDepth 16384

noncomputable section

namespace Cert.KernelIdeal.Hand.R1

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

section
variable (V : (c : Dev nD) → (b : Ref sig .tc) → Buf (Elt Ideal) ((c : Thread nD τ).loc b))

abbrev srcOf (c : Dev nD) : Fin 800000 → BitVec 32 := fun e => (V c main_v30 : Vec Ideal S800000x1 .i32) (ValueIdx.ix2 e 0)

abbrev dstOf (c : Dev nD) : Fin 800000 → BitVec 32 := fun e => (V c main_v31 : Vec Ideal S800000x1 .i32) (ValueIdx.ix2 e 0)

abbrev wOf (c : Dev nD) : Fin 800000 → EReal := fun e => (V c main_v32 : Vec Ideal S800000x1 .f32) (ValueIdx.ix2 e 0)

abbrev tabOf (c : Dev nD) : Fin 51200 → Fin 64 → EReal := fun n d => (V c main_v34 : Vec Ideal S51200x64 .f32) (ValueIdx.ix2 n d)

theorem idx1_0 : ∀ t : Fin cfg1.N, win1_0.index t 0 = t.val ∧ win1_0.index t 1 = 0 :=
  (by decide +kernel : ∀ t : Fin grid1.N, win1_0.index t 0 = t.val ∧ win1_0.index t 1 = 0)
theorem idx1_1 : ∀ t : Fin cfg1.N, win1_1.index t 0 = t.val ∧ win1_1.index t 1 = 0 :=
  (by decide +kernel : ∀ t : Fin grid1.N, win1_1.index t 0 = t.val ∧ win1_1.index t 1 = 0)
theorem idx1_2 : ∀ t : Fin cfg1.N, win1_2.index t 0 = t.val ∧ win1_2.index t 1 = 0 :=
  (by decide +kernel : ∀ t : Fin grid1.N, win1_2.index t 0 = t.val ∧ win1_2.index t 1 = 0)
theorem idx1_3 : ∀ t : Fin cfg1.N, win1_3.index t 0 = 0 ∧ win1_3.index t 1 = 0 :=
  (by decide +kernel : ∀ t : Fin grid1.N, win1_3.index t 0 = 0 ∧ win1_3.index t 1 = 0)
theorem idx1_4 : ∀ t : Fin cfg1.N, win1_4.index t 0 = 0 ∧ win1_4.index t 1 = 0 :=
  (by decide +kernel : ∀ t : Fin grid1.N, win1_4.index t 0 = 0 ∧ win1_4.index t 1 = 0)

theorem iblk1_0_apply (c : Dev nD) (t : Fin cfg1.N) (e : Fin 1280) :
    (iblk1 (F := Ideal) V c 0 t : Vec Ideal S1280x1 .i32) (ValueIdx.ix2 e 0) = srcOf V c (Cert.Spec.edgeIx t.val e) := by
  have hi := idx1_0 t
  have hN : cfg1.N = 625 := N_1
  have ht := t.isLt
  have he := e.isLt
  unfold iblk1
  rw [View.read_apply]
  show V c main_v30 _ = V c main_v30 _
  congr 1
  funext a
  apply Fin.ext
  match a with
  | ⟨0, _⟩ => show win1_0.index t 0 * 1280 + 1 * e.val = (1280 * t.val + e.val) % 800000; rw [hi.1]; omega
  | ⟨1, _⟩ => show win1_0.index t 1 * 1 + 1 * 0 = 0; rw [hi.2]

theorem iblk1_1_apply (c : Dev nD) (t : Fin cfg1.N) (e : Fin 1280) :
    (iblk1 (F := Ideal) V c 1 t : Vec Ideal S1280x1 .i32) (ValueIdx.ix2 e 0) = dstOf V c (Cert.Spec.edgeIx t.val e) := by
  have hi := idx1_1 t
  have hN : cfg1.N = 625 := N_1
  have ht := t.isLt
  have he := e.isLt
  unfold iblk1
  rw [View.read_apply]
  show V c main_v31 _ = V c main_v31 _
  congr 1
  funext a
  apply Fin.ext
  match a with
  | ⟨0, _⟩ => show win1_1.index t 0 * 1280 + 1 * e.val = (1280 * t.val + e.val) % 800000; rw [hi.1]; omega
  | ⟨1, _⟩ => show win1_1.index t 1 * 1 + 1 * 0 = 0; rw [hi.2]

theorem iblk1_2_apply (c : Dev nD) (t : Fin cfg1.N) (e : Fin 1280) :
    (iblk1 (F := Ideal) V c 2 t : Vec Ideal S1280x1 .f32) (ValueIdx.ix2 e 0) = wOf V c (Cert.Spec.edgeIx t.val e) := by
  have hi := idx1_2 t
  have hN : cfg1.N = 625 := N_1
  have ht := t.isLt
  have he := e.isLt
  unfold iblk1
  rw [View.read_apply]
  show V c main_v32 _ = V c main_v32 _
  congr 1
  funext a
  apply Fin.ext
  match a with
  | ⟨0, _⟩ => show win1_2.index t 0 * 1280 + 1 * e.val = (1280 * t.val + e.val) % 800000; rw [hi.1]; omega
  | ⟨1, _⟩ => show win1_2.index t 1 * 1 + 1 * 0 = 0; rw [hi.2]

theorem iblk1_3_apply (c : Dev nD) (t : Fin cfg1.N) (n : Fin 51200) (d : Fin 64) :
    (iblk1 (F := Ideal) V c 3 t : Vec Ideal S51200x64 .f32) (ValueIdx.ix2 n d) = tabOf V c n d := by
  have hi := idx1_3 t
  unfold iblk1
  rw [View.read_apply]
  show V c main_v34 _ = V c main_v34 _
  congr 1
  funext a
  apply Fin.ext
  match a with
  | ⟨0, _⟩ => show win1_3.index t 0 * 51200 + 1 * n.val = n.val; rw [hi.1]; omega
  | ⟨1, _⟩ => show win1_3.index t 1 * 64 + 1 * d.val = d.val; rw [hi.2]; omega
theorem iblk1_3_eq (c : Dev nD) (t : Fin cfg1.N) :
    (iblk1 (F := Ideal) V c 3 t : Vec Ideal S51200x64 .f32) = (V c main_v34 : Vec Ideal S51200x64 .f32) :=
  funext fun i => by
    obtain ⟨n, d, rfl⟩ : ∃ (n : Fin 51200) (d : Fin 64), i = ValueIdx.ix2 n d := ⟨i 0, i 1, ValueIdx.eq_ix2 i⟩
    exact iblk1_3_apply V c t n d

theorem contrib_iblk1 (c : Dev nD) (t : Fin cfg1.N) (n : Fin 51200) (d : Fin 64) :
    Cert.Spec.contrib (fun e => (iblk1 (F := Ideal) V c 0 t : Vec Ideal S1280x1 .i32) (ValueIdx.ix2 e 0))
        (fun e => (iblk1 (F := Ideal) V c 1 t : Vec Ideal S1280x1 .i32) (ValueIdx.ix2 e 0))
        (fun e => (iblk1 (F := Ideal) V c 2 t : Vec Ideal S1280x1 .f32) (ValueIdx.ix2 e 0))
        (fun n d => (iblk1 (F := Ideal) V c 3 t : Vec Ideal S51200x64 .f32) (ValueIdx.ix2 n d)) n d
      = Cert.Spec.contrib (Cert.Spec.blkOf (srcOf V c) t.val) (Cert.Spec.blkOf (dstOf V c) t.val)
          (Cert.Spec.blkOf (wOf V c) t.val) (tabOf V c) n d := by
  have e0 : (fun e => (iblk1 (F := Ideal) V c 0 t : Vec Ideal S1280x1 .i32) (ValueIdx.ix2 e 0)) = Cert.Spec.blkOf (srcOf V c) t.val :=
    funext fun e => iblk1_0_apply V c t e
  have e1 : (fun e => (iblk1 (F := Ideal) V c 1 t : Vec Ideal S1280x1 .i32) (ValueIdx.ix2 e 0)) = Cert.Spec.blkOf (dstOf V c) t.val :=
    funext fun e => iblk1_1_apply V c t e
  have e2 : (fun e => (iblk1 (F := Ideal) V c 2 t : Vec Ideal S1280x1 .f32) (ValueIdx.ix2 e 0)) = Cert.Spec.blkOf (wOf V c) t.val :=
    funext fun e => iblk1_2_apply V c t e
  have e3 : (fun n d => (iblk1 (F := Ideal) V c 3 t : Vec Ideal S51200x64 .f32) (ValueIdx.ix2 n d)) = tabOf V c :=
    funext fun n => funext fun d => iblk1_3_apply V c t n d
  rw [e0, e1, e2, e3]
end

section
variable (V : (c : Dev nD) → (b : Ref sig .tc) → Buf (Elt Ideal) ((c : Thread nD τ).loc b))

theorem outs1_fst_eq_snd (c : Dev nD) (t : ℕ) (ht : t < cfg1.N) :
    (outsAt1 (F := Ideal) V c t ht).1 = (outsAt1 (F := Ideal) V c t ht).2 := by
  cases t with
  | zero =>
    rw [outsAt1_A V c ⟨0, ht⟩ rfl]
    dsimp only
    exact out0_A_eq VO1 VS1 c (grid1.coords ⟨0, ht⟩) (ms1_0 ⟨0, ht⟩) (hs1_0 ⟨0, ht⟩) (ms1_1 ⟨0, ht⟩) (hs1_1 ⟨0, ht⟩) (ms1_2 ⟨0, ht⟩) (hs1_2 ⟨0, ht⟩) (ms1_3 ⟨0, ht⟩) (hs1_3 ⟨0, ht⟩) (ms1_4 ⟨0, ht⟩) (hs1_4 ⟨0, ht⟩) scM1 (Memref.isWhole_whole _) ((hcond1 ⟨0, ht⟩).mpr rfl) (iblk1 V c 0 ⟨0, ht⟩) (iblk1 V c 1 ⟨0, ht⟩) (iblk1 V c 2 ⟨0, ht⟩) (iblk1 V c 3 ⟨0, ht⟩)
  | succ k =>
    rw [outsAt1_B V c ⟨k + 1, ht⟩ (Nat.succ_ne_zero k)]
    dsimp only
    exact out0_B_eq VO1 VS1 c (grid1.coords ⟨k + 1, ht⟩) (ms1_0 ⟨k + 1, ht⟩) (hs1_0 ⟨k + 1, ht⟩) (ms1_1 ⟨k + 1, ht⟩) (hs1_1 ⟨k + 1, ht⟩) (ms1_2 ⟨k + 1, ht⟩) (hs1_2 ⟨k + 1, ht⟩) (ms1_3 ⟨k + 1, ht⟩) (hs1_3 ⟨k + 1, ht⟩) (ms1_4 ⟨k + 1, ht⟩) (hs1_4 ⟨k + 1, ht⟩) scM1 (Memref.isWhole_whole _) (fun h => Nat.succ_ne_zero k ((hcond1 ⟨k + 1, ht⟩).mp h)) (iblk1 V c 0 ⟨k + 1, ht⟩) (iblk1 V c 1 ⟨k + 1, ht⟩) (iblk1 V c 2 ⟨k + 1, ht⟩) (iblk1 V c 3 ⟨k + 1, ht⟩) (outsAt1 V c k (Nat.lt_of_succ_lt ht)).2

theorem acc1_apply (c : Dev nD) (t : ℕ) (ht : t < cfg1.N) (n : Fin 51200) (d : Fin 64) :
    (outsAt1 (F := Ideal) V c t ht).2 (ValueIdx.ix2 n d)
      = Cert.Spec.accAt (srcOf V c) (dstOf V c) (wOf V c) (tabOf V c) t n d := by
  induction t generalizing n d with
  | zero =>
    rw [outsAt1_A V c ⟨0, ht⟩ rfl]
    dsimp only
    refine (sout0_A_apply VS1 c (grid1.coords ⟨0, ht⟩) (ms1_0 ⟨0, ht⟩) (hs1_0 ⟨0, ht⟩) (ms1_1 ⟨0, ht⟩) (hs1_1 ⟨0, ht⟩) (ms1_2 ⟨0, ht⟩) (hs1_2 ⟨0, ht⟩) (ms1_3 ⟨0, ht⟩) (hs1_3 ⟨0, ht⟩) (ms1_4 ⟨0, ht⟩) (hs1_4 ⟨0, ht⟩) scM1 (Memref.isWhole_whole _) ((hcond1 ⟨0, ht⟩).mpr rfl) (iblk1 V c 0 ⟨0, ht⟩) (iblk1 V c 1 ⟨0, ht⟩) (iblk1 V c 2 ⟨0, ht⟩) (iblk1 V c 3 ⟨0, ht⟩) n d).trans ?_
    exact contrib_iblk1 V c ⟨0, ht⟩ n d
  | succ k ih =>
    rw [outsAt1_B V c ⟨k + 1, ht⟩ (Nat.succ_ne_zero k)]
    dsimp only
    refine (sout0_B_apply VS1 c (grid1.coords ⟨k + 1, ht⟩) (ms1_0 ⟨k + 1, ht⟩) (hs1_0 ⟨k + 1, ht⟩) (ms1_1 ⟨k + 1, ht⟩) (hs1_1 ⟨k + 1, ht⟩) (ms1_2 ⟨k + 1, ht⟩) (hs1_2 ⟨k + 1, ht⟩) (ms1_3 ⟨k + 1, ht⟩) (hs1_3 ⟨k + 1, ht⟩) (ms1_4 ⟨k + 1, ht⟩) (hs1_4 ⟨k + 1, ht⟩) scM1 (Memref.isWhole_whole _) (fun h => Nat.succ_ne_zero k ((hcond1 ⟨k + 1, ht⟩).mp h)) (iblk1 V c 0 ⟨k + 1, ht⟩) (iblk1 V c 1 ⟨k + 1, ht⟩) (iblk1 V c 2 ⟨k + 1, ht⟩) (iblk1 V c 3 ⟨k + 1, ht⟩) (outsAt1 V c k (Nat.lt_of_succ_lt ht)).2 n d).trans ?_
    rw [ih (Nat.lt_of_succ_lt ht) n d, contrib_iblk1 V c ⟨k + 1, ht⟩ n d]
    rfl

theorem out1_apply (c : Dev nD) (t : ℕ) (ht : t < cfg1.N) (n : Fin 51200) (d : Fin 64) :
    (outsAt1 (F := Ideal) V c t ht).1 (ValueIdx.ix2 n d)
      = Cert.Spec.accAt (srcOf V c) (dstOf V c) (wOf V c) (tabOf V c) t n d := by
  rw [outs1_fst_eq_snd V c t ht]
  exact acc1_apply V c t ht n d

abbrev resOf (c : Dev nD) : Vec Ideal S51200x64 .f32 :=
  fun i => Cert.Spec.propPad (srcOf V c) (dstOf V c) (wOf V c) (tabOf V c) (i 0) (i 1)

theorem out1_last (c : Dev nD) (t : Fin cfg1.N) (h : t.val = 624) :
    (outsAt1 (F := Ideal) V c t.val t.isLt).1 = resOf V c :=
  funext fun i => by
    obtain ⟨n, d, rfl⟩ : ∃ (n : Fin 51200) (d : Fin 64), i = ValueIdx.ix2 n d := ⟨i 0, i 1, ValueIdx.eq_ix2 i⟩
    rw [out1_apply V c t.val t.isLt n d, h]
    rfl

theorem flushed1_4_eq (c : Dev nD) (t : Fin cfg1.N) (hf : (cfg1.win 4).flush t = true) :
    (dat1 (F := Ideal) V c).flushed 4 t = ((cfg1.win 4).blk t).view.read (Elt Ideal) (resOf V c) := by
  have hN : cfg1.N = 625 := N_1
  have h3 : t.val = 624 := by have := (flush1_4 t).mp hf; have := t.isLt; omega
  have hi := idx1_4 t
  show (cfg1.win 4).cut (grid1.coords t) ((dat1 (F := Ideal) V c).after 4 t) = _
  rw [after1_4, out1_last V c t h3]
  have hz' : (fun a => win1_4.index t a * main_v35.ty.shape.size a) = fun _ => 0 := funext fun a => by
    match a with
    | ⟨0, _⟩ => show win1_4.index t 0 * _ = 0; rw [hi.1, Nat.zero_mul]
    | ⟨1, _⟩ => show win1_4.index t 1 * _ = 0; rw [hi.2, Nat.zero_mul]
  exact (Memref.read_access_unit_zero (Elt Ideal) main_v35 hz' (fun a => by rw [congrFun hz' a]; simp) (resOf V c)).symm

abbrev tLast1 : Fin cfg1.N := ⟨624, by rw [show cfg1.N = 625 from N_1]; decide⟩

theorem arr1_4_final (c : Dev nD) : (dat1 (F := Ideal) V c).arrAt 4 cfg1.N = resOf V c :=
  (dat1 (F := Ideal) V c).arrAt_eq_of_cover 4 (resOf V c) (flushed1_4_eq V c) fun i =>
    ⟨tLast1, (flush1_4 tLast1).mpr rfl, by
      show i ∈ ((View.whole main_v35).slice (win1_4.rect tLast1)).set
      rw [View.set_slice_whole, Rect.mem_set_unit]
      intro a
      have h0 : (i 0 : Nat) < 51200 := (i 0).isLt
      have h1 : (i 1 : Nat) < 64 := (i 1).isLt
      match a with
      | ⟨0, _⟩ => show win1_4.index tLast1 0 * win1_4.size 0 ≤ (i 0 : Nat) ∧ (i 0 : Nat) < win1_4.index tLast1 0 * win1_4.size 0 + win1_4.xsize (grid1.coords tLast1) 0
                  rw [show win1_4.index tLast1 0 * win1_4.size 0 = 0 from by decide +kernel, show win1_4.xsize (grid1.coords tLast1) 0 = 51200 from by decide +kernel]; omega
      | ⟨1, _⟩ => show win1_4.index tLast1 1 * win1_4.size 1 ≤ (i 1 : Nat) ∧ (i 1 : Nat) < win1_4.index tLast1 1 * win1_4.size 1 + win1_4.xsize (grid1.coords tLast1) 1
                  rw [show win1_4.index tLast1 1 * win1_4.size 1 = 0 from by decide +kernel, show win1_4.xsize (grid1.coords tLast1) 1 = 64 from by decide +kernel]; omega⟩

theorem region1_value (c : Dev nD) (n : Fin 51200) (d : Fin 64) :
    ((dat1 (F := Ideal) V c).arrAt 4 cfg1.N : Vec Ideal S51200x64 .f32) (ValueIdx.ix2 n d)
      = Cert.Spec.propPad (srcOf V c) (dstOf V c) (wOf V c) (tabOf V c) n d :=
  congrFun (arr1_4_final V c) (ValueIdx.ix2 n d)

theorem arr1_0_final (c : Dev nD) : (dat1 (F := Ideal) V c).arrAt 0 cfg1.N = V c main_v30 :=
  ((dat1 (F := Ideal) V c).arrAt_in 0 rfl _).trans (A_eq1 V c 0)
theorem arr1_1_final (c : Dev nD) : (dat1 (F := Ideal) V c).arrAt 1 cfg1.N = V c main_v31 :=
  ((dat1 (F := Ideal) V c).arrAt_in 1 rfl _).trans (A_eq1 V c 1)
theorem arr1_2_final (c : Dev nD) : (dat1 (F := Ideal) V c).arrAt 2 cfg1.N = V c main_v32 :=
  ((dat1 (F := Ideal) V c).arrAt_in 2 rfl _).trans (A_eq1 V c 2)
theorem arr1_3_final (c : Dev nD) : (dat1 (F := Ideal) V c).arrAt 3 cfg1.N = V c main_v34 :=
  ((dat1 (F := Ideal) V c).arrAt_in 3 rfl _).trans (A_eq1 V c 3)
end

end Cert.KernelIdeal.Hand.R1

end
-- ==== Proof.KernelIdealR2Acc.lean ====
import proofs.«418351_j72971494359151_1_alg».proof.Proof.KernelIdealR2Body
import proofs.«418351_j72971494359151_1_alg».proof.Proof.KernelIdealR0Pieces
import proofs.«418351_j72971494359151_1_alg».proof.Proof.Spec
import Idealize.ShloMosaic.Lib.Pipeline.Value
import Idealize.ShloMosaic.Lib.ValueIdx

set_option maxRecDepth 16384

noncomputable section

namespace Cert.KernelIdeal.Hand.R2

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

section
variable (V : (c : Dev nD) → (b : Ref sig .tc) → Buf (Elt Ideal) ((c : Thread nD τ).loc b))

abbrev srcOf (c : Dev nD) : Fin 800000 → BitVec 32 := fun e => (V c main_v30 : Vec Ideal S800000x1 .i32) (ValueIdx.ix2 e 0)

abbrev dstOf (c : Dev nD) : Fin 800000 → BitVec 32 := fun e => (V c main_v31 : Vec Ideal S800000x1 .i32) (ValueIdx.ix2 e 0)

abbrev wOf (c : Dev nD) : Fin 800000 → EReal := fun e => (V c main_v32 : Vec Ideal S800000x1 .f32) (ValueIdx.ix2 e 0)

abbrev tabOf (c : Dev nD) : Fin 51200 → Fin 64 → EReal := fun n d => (V c main_v35 : Vec Ideal S51200x64 .f32) (ValueIdx.ix2 n d)

theorem idx2_0 : ∀ t : Fin cfg2.N, win2_0.index t 0 = t.val ∧ win2_0.index t 1 = 0 :=
  (by decide +kernel : ∀ t : Fin grid2.N, win2_0.index t 0 = t.val ∧ win2_0.index t 1 = 0)
theorem idx2_1 : ∀ t : Fin cfg2.N, win2_1.index t 0 = t.val ∧ win2_1.index t 1 = 0 :=
  (by decide +kernel : ∀ t : Fin grid2.N, win2_1.index t 0 = t.val ∧ win2_1.index t 1 = 0)
theorem idx2_2 : ∀ t : Fin cfg2.N, win2_2.index t 0 = t.val ∧ win2_2.index t 1 = 0 :=
  (by decide +kernel : ∀ t : Fin grid2.N, win2_2.index t 0 = t.val ∧ win2_2.index t 1 = 0)
theorem idx2_3 : ∀ t : Fin cfg2.N, win2_3.index t 0 = 0 ∧ win2_3.index t 1 = 0 :=
  (by decide +kernel : ∀ t : Fin grid2.N, win2_3.index t 0 = 0 ∧ win2_3.index t 1 = 0)
theorem idx2_4 : ∀ t : Fin cfg2.N, win2_4.index t 0 = 0 ∧ win2_4.index t 1 = 0 :=
  (by decide +kernel : ∀ t : Fin grid2.N, win2_4.index t 0 = 0 ∧ win2_4.index t 1 = 0)

theorem iblk2_0_apply (c : Dev nD) (t : Fin cfg2.N) (e : Fin 1280) :
    (iblk2 (F := Ideal) V c 0 t : Vec Ideal S1280x1 .i32) (ValueIdx.ix2 e 0) = srcOf V c (Cert.Spec.edgeIx t.val e) := by
  have hi := idx2_0 t
  have hN : cfg2.N = 625 := N_2
  have ht := t.isLt
  have he := e.isLt
  unfold iblk2
  rw [View.read_apply]
  show V c main_v30 _ = V c main_v30 _
  congr 1
  funext a
  apply Fin.ext
  match a with
  | ⟨0, _⟩ => show win2_0.index t 0 * 1280 + 1 * e.val = (1280 * t.val + e.val) % 800000; rw [hi.1]; omega
  | ⟨1, _⟩ => show win2_0.index t 1 * 1 + 1 * 0 = 0; rw [hi.2]

theorem iblk2_1_apply (c : Dev nD) (t : Fin cfg2.N) (e : Fin 1280) :
    (iblk2 (F := Ideal) V c 1 t : Vec Ideal S1280x1 .i32) (ValueIdx.ix2 e 0) = dstOf V c (Cert.Spec.edgeIx t.val e) := by
  have hi := idx2_1 t
  have hN : cfg2.N = 625 := N_2
  have ht := t.isLt
  have he := e.isLt
  unfold iblk2
  rw [View.read_apply]
  show V c main_v31 _ = V c main_v31 _
  congr 1
  funext a
  apply Fin.ext
  match a with
  | ⟨0, _⟩ => show win2_1.index t 0 * 1280 + 1 * e.val = (1280 * t.val + e.val) % 800000; rw [hi.1]; omega
  | ⟨1, _⟩ => show win2_1.index t 1 * 1 + 1 * 0 = 0; rw [hi.2]

theorem iblk2_2_apply (c : Dev nD) (t : Fin cfg2.N) (e : Fin 1280) :
    (iblk2 (F := Ideal) V c 2 t : Vec Ideal S1280x1 .f32) (ValueIdx.ix2 e 0) = wOf V c (Cert.Spec.edgeIx t.val e) := by
  have hi := idx2_2 t
  have hN : cfg2.N = 625 := N_2
  have ht := t.isLt
  have he := e.isLt
  unfold iblk2
  rw [View.read_apply]
  show V c main_v32 _ = V c main_v32 _
  congr 1
  funext a
  apply Fin.ext
  match a with
  | ⟨0, _⟩ => show win2_2.index t 0 * 1280 + 1 * e.val = (1280 * t.val + e.val) % 800000; rw [hi.1]; omega
  | ⟨1, _⟩ => show win2_2.index t 1 * 1 + 1 * 0 = 0; rw [hi.2]

theorem iblk2_3_apply (c : Dev nD) (t : Fin cfg2.N) (n : Fin 51200) (d : Fin 64) :
    (iblk2 (F := Ideal) V c 3 t : Vec Ideal S51200x64 .f32) (ValueIdx.ix2 n d) = tabOf V c n d := by
  have hi := idx2_3 t
  unfold iblk2
  rw [View.read_apply]
  show V c main_v35 _ = V c main_v35 _
  congr 1
  funext a
  apply Fin.ext
  match a with
  | ⟨0, _⟩ => show win2_3.index t 0 * 51200 + 1 * n.val = n.val; rw [hi.1]; omega
  | ⟨1, _⟩ => show win2_3.index t 1 * 64 + 1 * d.val = d.val; rw [hi.2]; omega
theorem iblk2_3_eq (c : Dev nD) (t : Fin cfg2.N) :
    (iblk2 (F := Ideal) V c 3 t : Vec Ideal S51200x64 .f32) = (V c main_v35 : Vec Ideal S51200x64 .f32) :=
  funext fun i => by
    obtain ⟨n, d, rfl⟩ : ∃ (n : Fin 51200) (d : Fin 64), i = ValueIdx.ix2 n d := ⟨i 0, i 1, ValueIdx.eq_ix2 i⟩
    exact iblk2_3_apply V c t n d

theorem contrib_iblk2 (c : Dev nD) (t : Fin cfg2.N) (n : Fin 51200) (d : Fin 64) :
    Cert.Spec.contrib (fun e => (iblk2 (F := Ideal) V c 0 t : Vec Ideal S1280x1 .i32) (ValueIdx.ix2 e 0))
        (fun e => (iblk2 (F := Ideal) V c 1 t : Vec Ideal S1280x1 .i32) (ValueIdx.ix2 e 0))
        (fun e => (iblk2 (F := Ideal) V c 2 t : Vec Ideal S1280x1 .f32) (ValueIdx.ix2 e 0))
        (fun n d => (iblk2 (F := Ideal) V c 3 t : Vec Ideal S51200x64 .f32) (ValueIdx.ix2 n d)) n d
      = Cert.Spec.contrib (Cert.Spec.blkOf (srcOf V c) t.val) (Cert.Spec.blkOf (dstOf V c) t.val)
          (Cert.Spec.blkOf (wOf V c) t.val) (tabOf V c) n d := by
  have e0 : (fun e => (iblk2 (F := Ideal) V c 0 t : Vec Ideal S1280x1 .i32) (ValueIdx.ix2 e 0)) = Cert.Spec.blkOf (srcOf V c) t.val :=
    funext fun e => iblk2_0_apply V c t e
  have e1 : (fun e => (iblk2 (F := Ideal) V c 1 t : Vec Ideal S1280x1 .i32) (ValueIdx.ix2 e 0)) = Cert.Spec.blkOf (dstOf V c) t.val :=
    funext fun e => iblk2_1_apply V c t e
  have e2 : (fun e => (iblk2 (F := Ideal) V c 2 t : Vec Ideal S1280x1 .f32) (ValueIdx.ix2 e 0)) = Cert.Spec.blkOf (wOf V c) t.val :=
    funext fun e => iblk2_2_apply V c t e
  have e3 : (fun n d => (iblk2 (F := Ideal) V c 3 t : Vec Ideal S51200x64 .f32) (ValueIdx.ix2 n d)) = tabOf V c :=
    funext fun n => funext fun d => iblk2_3_apply V c t n d
  rw [e0, e1, e2, e3]
end

section
variable (V : (c : Dev nD) → (b : Ref sig .tc) → Buf (Elt Ideal) ((c : Thread nD τ).loc b))

theorem outs2_fst_eq_snd (c : Dev nD) (t : ℕ) (ht : t < cfg2.N) :
    (outsAt2 (F := Ideal) V c t ht).1 = (outsAt2 (F := Ideal) V c t ht).2 := by
  cases t with
  | zero =>
    rw [outsAt2_A V c ⟨0, ht⟩ rfl]
    dsimp only
    exact out0_A_eq VO2 VS2 c (grid2.coords ⟨0, ht⟩) (ms2_0 ⟨0, ht⟩) (hs2_0 ⟨0, ht⟩) (ms2_1 ⟨0, ht⟩) (hs2_1 ⟨0, ht⟩) (ms2_2 ⟨0, ht⟩) (hs2_2 ⟨0, ht⟩) (ms2_3 ⟨0, ht⟩) (hs2_3 ⟨0, ht⟩) (ms2_4 ⟨0, ht⟩) (hs2_4 ⟨0, ht⟩) scM2 (Memref.isWhole_whole _) ((hcond2 ⟨0, ht⟩).mpr rfl) (iblk2 V c 0 ⟨0, ht⟩) (iblk2 V c 1 ⟨0, ht⟩) (iblk2 V c 2 ⟨0, ht⟩) (iblk2 V c 3 ⟨0, ht⟩)
  | succ k =>
    rw [outsAt2_B V c ⟨k + 1, ht⟩ (Nat.succ_ne_zero k)]
    dsimp only
    exact out0_B_eq VO2 VS2 c (grid2.coords ⟨k + 1, ht⟩) (ms2_0 ⟨k + 1, ht⟩) (hs2_0 ⟨k + 1, ht⟩) (ms2_1 ⟨k + 1, ht⟩) (hs2_1 ⟨k + 1, ht⟩) (ms2_2 ⟨k + 1, ht⟩) (hs2_2 ⟨k + 1, ht⟩) (ms2_3 ⟨k + 1, ht⟩) (hs2_3 ⟨k + 1, ht⟩) (ms2_4 ⟨k + 1, ht⟩) (hs2_4 ⟨k + 1, ht⟩) scM2 (Memref.isWhole_whole _) (fun h => Nat.succ_ne_zero k ((hcond2 ⟨k + 1, ht⟩).mp h)) (iblk2 V c 0 ⟨k + 1, ht⟩) (iblk2 V c 1 ⟨k + 1, ht⟩) (iblk2 V c 2 ⟨k + 1, ht⟩) (iblk2 V c 3 ⟨k + 1, ht⟩) (outsAt2 V c k (Nat.lt_of_succ_lt ht)).2

theorem acc2_apply (c : Dev nD) (t : ℕ) (ht : t < cfg2.N) (n : Fin 51200) (d : Fin 64) :
    (outsAt2 (F := Ideal) V c t ht).2 (ValueIdx.ix2 n d)
      = Cert.Spec.accAt (srcOf V c) (dstOf V c) (wOf V c) (tabOf V c) t n d := by
  induction t generalizing n d with
  | zero =>
    rw [outsAt2_A V c ⟨0, ht⟩ rfl]
    dsimp only
    refine (sout0_A_apply VS2 c (grid2.coords ⟨0, ht⟩) (ms2_0 ⟨0, ht⟩) (hs2_0 ⟨0, ht⟩) (ms2_1 ⟨0, ht⟩) (hs2_1 ⟨0, ht⟩) (ms2_2 ⟨0, ht⟩) (hs2_2 ⟨0, ht⟩) (ms2_3 ⟨0, ht⟩) (hs2_3 ⟨0, ht⟩) (ms2_4 ⟨0, ht⟩) (hs2_4 ⟨0, ht⟩) scM2 (Memref.isWhole_whole _) ((hcond2 ⟨0, ht⟩).mpr rfl) (iblk2 V c 0 ⟨0, ht⟩) (iblk2 V c 1 ⟨0, ht⟩) (iblk2 V c 2 ⟨0, ht⟩) (iblk2 V c 3 ⟨0, ht⟩) n d).trans ?_
    exact contrib_iblk2 V c ⟨0, ht⟩ n d
  | succ k ih =>
    rw [outsAt2_B V c ⟨k + 1, ht⟩ (Nat.succ_ne_zero k)]
    dsimp only
    refine (sout0_B_apply VS2 c (grid2.coords ⟨k + 1, ht⟩) (ms2_0 ⟨k + 1, ht⟩) (hs2_0 ⟨k + 1, ht⟩) (ms2_1 ⟨k + 1, ht⟩) (hs2_1 ⟨k + 1, ht⟩) (ms2_2 ⟨k + 1, ht⟩) (hs2_2 ⟨k + 1, ht⟩) (ms2_3 ⟨k + 1, ht⟩) (hs2_3 ⟨k + 1, ht⟩) (ms2_4 ⟨k + 1, ht⟩) (hs2_4 ⟨k + 1, ht⟩) scM2 (Memref.isWhole_whole _) (fun h => Nat.succ_ne_zero k ((hcond2 ⟨k + 1, ht⟩).mp h)) (iblk2 V c 0 ⟨k + 1, ht⟩) (iblk2 V c 1 ⟨k + 1, ht⟩) (iblk2 V c 2 ⟨k + 1, ht⟩) (iblk2 V c 3 ⟨k + 1, ht⟩) (outsAt2 V c k (Nat.lt_of_succ_lt ht)).2 n d).trans ?_
    rw [ih (Nat.lt_of_succ_lt ht) n d, contrib_iblk2 V c ⟨k + 1, ht⟩ n d]
    rfl

theorem out2_apply (c : Dev nD) (t : ℕ) (ht : t < cfg2.N) (n : Fin 51200) (d : Fin 64) :
    (outsAt2 (F := Ideal) V c t ht).1 (ValueIdx.ix2 n d)
      = Cert.Spec.accAt (srcOf V c) (dstOf V c) (wOf V c) (tabOf V c) t n d := by
  rw [outs2_fst_eq_snd V c t ht]
  exact acc2_apply V c t ht n d

abbrev resOf (c : Dev nD) : Vec Ideal S51200x64 .f32 :=
  fun i => Cert.Spec.propPad (srcOf V c) (dstOf V c) (wOf V c) (tabOf V c) (i 0) (i 1)

theorem out2_last (c : Dev nD) (t : Fin cfg2.N) (h : t.val = 624) :
    (outsAt2 (F := Ideal) V c t.val t.isLt).1 = resOf V c :=
  funext fun i => by
    obtain ⟨n, d, rfl⟩ : ∃ (n : Fin 51200) (d : Fin 64), i = ValueIdx.ix2 n d := ⟨i 0, i 1, ValueIdx.eq_ix2 i⟩
    rw [out2_apply V c t.val t.isLt n d, h]
    rfl

theorem flushed2_4_eq (c : Dev nD) (t : Fin cfg2.N) (hf : (cfg2.win 4).flush t = true) :
    (dat2 (F := Ideal) V c).flushed 4 t = ((cfg2.win 4).blk t).view.read (Elt Ideal) (resOf V c) := by
  have hN : cfg2.N = 625 := N_2
  have h3 : t.val = 624 := by have := (flush2_4 t).mp hf; have := t.isLt; omega
  have hi := idx2_4 t
  show (cfg2.win 4).cut (grid2.coords t) ((dat2 (F := Ideal) V c).after 4 t) = _
  rw [after2_4, out2_last V c t h3]
  have hz' : (fun a => win2_4.index t a * main_v36.ty.shape.size a) = fun _ => 0 := funext fun a => by
    match a with
    | ⟨0, _⟩ => show win2_4.index t 0 * _ = 0; rw [hi.1, Nat.zero_mul]
    | ⟨1, _⟩ => show win2_4.index t 1 * _ = 0; rw [hi.2, Nat.zero_mul]
  exact (Memref.read_access_unit_zero (Elt Ideal) main_v36 hz' (fun a => by rw [congrFun hz' a]; simp) (resOf V c)).symm

abbrev tLast2 : Fin cfg2.N := ⟨624, by rw [show cfg2.N = 625 from N_2]; decide⟩

theorem arr2_4_final (c : Dev nD) : (dat2 (F := Ideal) V c).arrAt 4 cfg2.N = resOf V c :=
  (dat2 (F := Ideal) V c).arrAt_eq_of_cover 4 (resOf V c) (flushed2_4_eq V c) fun i =>
    ⟨tLast2, (flush2_4 tLast2).mpr rfl, by
      show i ∈ ((View.whole main_v36).slice (win2_4.rect tLast2)).set
      rw [View.set_slice_whole, Rect.mem_set_unit]
      intro a
      have h0 : (i 0 : Nat) < 51200 := (i 0).isLt
      have h1 : (i 1 : Nat) < 64 := (i 1).isLt
      match a with
      | ⟨0, _⟩ => show win2_4.index tLast2 0 * win2_4.size 0 ≤ (i 0 : Nat) ∧ (i 0 : Nat) < win2_4.index tLast2 0 * win2_4.size 0 + win2_4.xsize (grid2.coords tLast2) 0
                  rw [show win2_4.index tLast2 0 * win2_4.size 0 = 0 from by decide +kernel, show win2_4.xsize (grid2.coords tLast2) 0 = 51200 from by decide +kernel]; omega
      | ⟨1, _⟩ => show win2_4.index tLast2 1 * win2_4.size 1 ≤ (i 1 : Nat) ∧ (i 1 : Nat) < win2_4.index tLast2 1 * win2_4.size 1 + win2_4.xsize (grid2.coords tLast2) 1
                  rw [show win2_4.index tLast2 1 * win2_4.size 1 = 0 from by decide +kernel, show win2_4.xsize (grid2.coords tLast2) 1 = 64 from by decide +kernel]; omega⟩

theorem region2_value (c : Dev nD) (n : Fin 51200) (d : Fin 64) :
    ((dat2 (F := Ideal) V c).arrAt 4 cfg2.N : Vec Ideal S51200x64 .f32) (ValueIdx.ix2 n d)
      = Cert.Spec.propPad (srcOf V c) (dstOf V c) (wOf V c) (tabOf V c) n d :=
  congrFun (arr2_4_final V c) (ValueIdx.ix2 n d)

theorem arr2_0_final (c : Dev nD) : (dat2 (F := Ideal) V c).arrAt 0 cfg2.N = V c main_v30 :=
  ((dat2 (F := Ideal) V c).arrAt_in 0 rfl _).trans (A_eq2 V c 0)
theorem arr2_1_final (c : Dev nD) : (dat2 (F := Ideal) V c).arrAt 1 cfg2.N = V c main_v31 :=
  ((dat2 (F := Ideal) V c).arrAt_in 1 rfl _).trans (A_eq2 V c 1)
theorem arr2_2_final (c : Dev nD) : (dat2 (F := Ideal) V c).arrAt 2 cfg2.N = V c main_v32 :=
  ((dat2 (F := Ideal) V c).arrAt_in 2 rfl _).trans (A_eq2 V c 2)
theorem arr2_3_final (c : Dev nD) : (dat2 (F := Ideal) V c).arrAt 3 cfg2.N = V c main_v35 :=
  ((dat2 (F := Ideal) V c).arrAt_in 3 rfl _).trans (A_eq2 V c 3)
end

end Cert.KernelIdeal.Hand.R2

end
-- ==== Proof.SpecMath.lean ====
import proofs.«418351_j72971494359151_1_alg».proof.Proof.Spec
import Mathlib.Data.EReal.Basic
import Mathlib.Data.Fintype.BigOperators
import Mathlib.Algebra.BigOperators.Fin
import Mathlib.Algebra.BigOperators.Group.Finset.Basic
import Mathlib.Logic.Equiv.Fin.Basic

noncomputable section

namespace Cert.Spec

open Idealize.ShloMosaic

theorem eq_ofNat_iff (a : BitVec 32) (n : ℕ) (hn : n < 2 ^ 32) : a = BitVec.ofNat 32 n ↔ a.toNat = n := by
  constructor
  · intro h
    rw [h, BitVec.toNat_ofNat, Nat.mod_eq_of_lt hn]
  · intro h
    apply BitVec.eq_of_toNat_eq
    rw [BitVec.toNat_ofNat, Nat.mod_eq_of_lt hn]
    exact h

theorem oh_self (a : BitVec 32) : oh a a.toNat = 1 := by
  unfold oh
  rw [if_pos]
  exact (eq_ofNat_iff a a.toNat a.isLt).2 rfl

theorem oh_of_ne (a : BitVec 32) (n : ℕ) (hn : n < 2 ^ 32) (h : a.toNat ≠ n) : oh a n = 0 := by
  unfold oh
  rw [if_neg]
  intro h'
  exact h ((eq_ofNat_iff a n hn).1 h')

theorem oh_mul (a : BitVec 32) (n : ℕ) (t : EReal) :
    oh a n * t = if a = BitVec.ofNat 32 n then t else 0 := by
  unfold oh
  split_ifs
  · exact one_mul t
  · exact zero_mul t

-- Only the word's own row survives the sum.
theorem gath_of_lt (x : Fin 51200 → Fin 64 → EReal) (a : BitVec 32) (ha : a.toNat < 51200) (d : Fin 64) :
    gath x a d = x ⟨a.toNat, ha⟩ d := by
  unfold gath
  rw [Fintype.sum_eq_single (⟨a.toNat, ha⟩ : Fin 51200)]
  · show oh a a.toNat * x ⟨a.toNat, ha⟩ d = x ⟨a.toNat, ha⟩ d
    rw [oh_self, one_mul]
  · intro b hb
    rw [oh_of_ne a b.val (by have := b.isLt; omega), zero_mul]
    intro h
    apply hb
    exact Fin.ext h.symm

theorem gath_of_ge (x : Fin 51200 → Fin 64 → EReal) (a : BitVec 32) (ha : 51200 ≤ a.toNat) (d : Fin 64) :
    gath x a d = 0 := by
  unfold gath
  apply Finset.sum_eq_zero
  intro b _
  rw [oh_of_ne a b.val (by have := b.isLt; omega) (by have := b.isLt; omega), zero_mul]

theorem padX_of_lt (y : Fin 50000 → Fin 64 → EReal) (n : Fin 51200) (hn : n.val < 50000) (d : Fin 64) :
    padX y n d = y ⟨n.val, hn⟩ d := by
  unfold padX
  exact dif_pos hn

theorem padX_of_ge (y : Fin 50000 → Fin 64 → EReal) (n : Fin 51200) (hn : ¬ n.val < 50000) (d : Fin 64) :
    padX y n d = 0 := by
  unfold padX
  exact dif_neg hn

theorem gath_padX (x : Fin 50000 → Fin 64 → EReal) (a : BitVec 32) (ha : a.toNat < 50000) (d : Fin 64) :
    gath (padX x) a d = x ⟨a.toNat, ha⟩ d := by
  rw [gath_of_lt (padX x) a (by omega) d, padX_of_lt x ⟨a.toNat, by omega⟩ ha d]

def edgeTerm (src dst : Fin 800000 → BitVec 32) (w : Fin 800000 → EReal) (x : Fin 51200 → Fin 64 → EReal)
    (n : Fin 51200) (d : Fin 64) (i : Fin 800000) : EReal :=
  oh (dst i) n.val * (gath x (src i) d * w i)

theorem contrib_blk (src dst : Fin 800000 → BitVec 32) (w : Fin 800000 → EReal) (x : Fin 51200 → Fin 64 → EReal)
    (t : ℕ) (n : Fin 51200) (d : Fin 64) :
    contrib (blkOf src t) (blkOf dst t) (blkOf w t) x n d
      = ∑ e : Fin 1280, edgeTerm src dst w x n d (edgeIx t e) := rfl

-- The recursion unrolls to a sum over blocks.
theorem accAt_eq_sum (src dst : Fin 800000 → BitVec 32) (w : Fin 800000 → EReal) (x : Fin 51200 → Fin 64 → EReal)
    (n : Fin 51200) (d : Fin 64) (t : ℕ) :
    accAt src dst w x t n d
      = ∑ s ∈ Finset.range (t + 1), ∑ e : Fin 1280, edgeTerm src dst w x n d (edgeIx s e) := by
  induction t with
  | zero =>
    rw [Finset.sum_range_one]
    exact contrib_blk src dst w x 0 n d
  | succ t ih =>
    rw [Finset.sum_range_succ, ← ih]
    show accAt src dst w x t n d + contrib (blkOf src (t + 1)) (blkOf dst (t + 1)) (blkOf w (t + 1)) x n d = _
    rw [contrib_blk]

theorem edgeIx_eq (p : Fin 625 × Fin 1280) :
    edgeIx p.1.val p.2 = (finProdFinEquiv : Fin 625 × Fin 1280 ≃ Fin 800000) p := by
  apply Fin.ext
  show (1280 * p.1.val + p.2.val) % 800000 = p.2.val + 1280 * p.1.val
  have h1 := p.1.isLt
  have h2 := p.2.isLt
  omega

-- (block, slot) ↦ 1280·block + slot is a bijection onto the edges.
theorem sum_blocks (g : Fin 800000 → EReal) :
    ∑ s ∈ Finset.range 625, ∑ e : Fin 1280, g (edgeIx s e) = ∑ i : Fin 800000, g i := by
  rw [← Fin.sum_univ_eq_sum_range (fun s => ∑ e : Fin 1280, g (edgeIx s e)) 625]
  rw [← Fintype.sum_prod_type' (fun (s : Fin 625) (e : Fin 1280) => g (edgeIx s.val e))]
  apply Fintype.sum_equiv (finProdFinEquiv : Fin 625 × Fin 1280 ≃ Fin 800000)
  intro p
  show g (edgeIx p.1.val p.2) = _
  rw [edgeIx_eq]

theorem propPad_eq_sum (src dst : Fin 800000 → BitVec 32) (w : Fin 800000 → EReal) (x : Fin 51200 → Fin 64 → EReal)
    (n : Fin 51200) (d : Fin 64) :
    propPad src dst w x n d = ∑ i : Fin 800000, edgeTerm src dst w x n d i := by
  unfold propPad
  rw [accAt_eq_sum, sum_blocks]

-- With every endpoint below 50000, `oh` and `gath` select exactly the reference's terms.
theorem propPad_eq_propRef (src dst : Fin 800000 → BitVec 32) (w : Fin 800000 → EReal)
    (x : Fin 50000 → Fin 64 → EReal) (hs : ∀ e, (src e).toNat < 50000) (n : Fin 51200) (hn : n.val < 50000)
    (d : Fin 64) :
    propPad src dst w (padX x) n d = propRef src dst w x ⟨n.val, hn⟩ d := by
  rw [propPad_eq_sum]
  unfold propRef
  apply Finset.sum_congr rfl
  intro e _
  unfold edgeTerm
  rw [oh_mul, gath_padX x (src e) (hs e) d, dif_pos (hs e)]

-- No destination is a padding row, so those rows receive nothing.
theorem propPad_pad_zero (src dst : Fin 800000 → BitVec 32) (w : Fin 800000 → EReal)
    (x51 : Fin 51200 → Fin 64 → EReal) (hd : ∀ e, (dst e).toNat < 50000) (n : Fin 51200) (hn : 50000 ≤ n.val)
    (d : Fin 64) : propPad src dst w x51 n d = 0 := by
  rw [propPad_eq_sum]
  apply Finset.sum_eq_zero
  intro e _
  unfold edgeTerm
  rw [oh_of_ne (dst e) n.val (by have := n.isLt; omega) (by have := hd e; omega), zero_mul]

-- Hence a round on the padded table is the padded reference round.
theorem propPad_padX (src dst : Fin 800000 → BitVec 32) (w : Fin 800000 → EReal) (x : Fin 50000 → Fin 64 → EReal)
    (hs : ∀ e, (src e).toNat < 50000) (hd : ∀ e, (dst e).toNat < 50000) :
    propPad src dst w (padX x) = padX (propRef src dst w x) := by
  funext n d
  by_cases hn : n.val < 50000
  · rw [propPad_eq_propRef src dst w x hs n hn d, padX_of_lt (propRef src dst w x) n hn d]
  · rw [propPad_pad_zero src dst w (padX x) hd n (by omega) d, padX_of_ge (propRef src dst w x) n hn d]

end Cert.Spec

end
-- ==== Proof.RefRun.lean ====
import proofs.«418351_j72971494359151_1_alg».proof.Proof.RefRunP
import proofs.«418351_j72971494359151_1_alg».proof.Proof.RefReadP
-- ==== Proof.KernelIdealHost.lean ====
import proofs.«418351_j72971494359151_1_alg».proof.Proof.KernelIdealRxRunAll
import proofs.«418351_j72971494359151_1_alg».proof.Proof.Spec
import proofs.«418351_j72971494359151_1_alg».proof.Proof.SpecMath
import proofs.«418351_j72971494359151_1_alg».proof.Proof.RefRun
import Idealize.ShloMosaic.Lib.ValueIdx
import Idealize.ShloMosaic.Lib.Pipeline.Value
import Idealize.ShloMosaic.Lib.KernelVsHost

set_option maxRecDepth 16384

noncomputable section

namespace Cert.KernelIdeal.Hand

open Idealize.ShloMosaic Idealize.ShloMosaic.TcCoe Idealize.ShloMosaic.Tactic
open Idealize.ShloMosaic.StableHlo
open Cert.KernelIdeal Cert.KernelIdeal.Gen

section Abstract
variable {F : FTy → Type} [FloatOps F]
variable (m : (ℓ : Loc nD τ sig) → Buf (Elt F) ℓ)

theorem V1_v1 (c : Dev nD) : Gen.V1 m c main_v1 = Cert.ReferenceIdeal.Read.val_main_v1 (F := F) (m ((c : Thread nD τ).loc main_arg0)) := by
  dsimp only [Gen.V1, Gen.V0, hostOps0]
  after_results
  rfl
theorem V1_v3 (c : Dev nD) : Gen.V1 m c main_v3 = Cert.ReferenceIdeal.Read.val_main_v3 (F := F) (m ((c : Thread nD τ).loc main_arg0)) := by
  dsimp only [Gen.V1, Gen.V0, hostOps0]
  after_results
  rfl
theorem V1_v7 (c : Dev nD) : Gen.V1 m c main_v7 = Cert.ReferenceIdeal.Read.val_main_v7 (F := F) (m ((c : Thread nD τ).loc main_arg0)) := by
  dsimp only [Gen.V1, Gen.V0, hostOps0]
  after_results
  rfl
theorem V1_v9 (c : Dev nD) : Gen.V1 m c main_v9 = Cert.ReferenceIdeal.Read.val_main_v9 (F := F) (m ((c : Thread nD τ).loc main_arg0)) := by
  dsimp only [Gen.V1, Gen.V0, hostOps0]
  after_results
  rfl
theorem V1_v11 (c : Dev nD) : Gen.V1 m c main_v11 = Cert.ReferenceIdeal.Read.val_main_v11 (F := F) (m ((c : Thread nD τ).loc main_arg0)) := by
  dsimp only [Gen.V1, Gen.V0, hostOps0]
  after_results
  rfl
theorem V1_cst_3 (c : Dev nD) : Gen.V1 m c main_cst_3 = Cert.ReferenceIdeal.Read.val_main_cst_3 (F := F) := by
  dsimp only [Gen.V1, Gen.V0, hostOps0]
  after_results
  rfl

theorem s2_v12 (W : Valuation τ sig (Elt F)) : StableHlo.after hostOps0_1 W main_v12
    = select (W main_v11) (W main_v7) (broadcastInDim S50000 ![] bcast_S_S50000 (id (W main_cst_3))) := by
  dsimp only [hostOps0_1]
  after_results
  rfl
theorem V2_v12 (c : Dev nD) : Gen.V2 m c main_v12 = Cert.ReferenceIdeal.Read.val_main_v12 (F := F) (m ((c : Thread nD τ).loc main_arg0)) := by
  refine (s2_v12 (Gen.V1 m c)).trans ?_
  rw [V1_v11, V1_v7, V1_cst_3]
  rfl

theorem s3_v13 (W : Valuation τ sig (Elt F)) : StableHlo.after hostOps0_2 W main_v13 = Host.rsqrt (W main_v12) := by
  dsimp only [hostOps0_2]
  after_results
theorem s3_cst_4 (W : Valuation τ sig (Elt F)) : StableHlo.after hostOps0_2 W main_cst_4 = constant (F := F) S_ .f32 0x00000000#32 := by
  dsimp only [hostOps0_2]
  after_results
theorem V3_v13 (c : Dev nD) : Gen.V3 m c main_v13 = Cert.ReferenceIdeal.Read.val_main_v13 (F := F) (m ((c : Thread nD τ).loc main_arg0)) := by
  refine (s3_v13 (Gen.V2 m c)).trans ?_
  rw [V2_v12]
  rfl
theorem V3_cst_4 (c : Dev nD) : Gen.V3 m c main_cst_4 = Cert.ReferenceIdeal.Read.val_main_cst_4 (F := F) :=
  (s3_cst_4 (Gen.V2 m c)).trans rfl
theorem V3_v9 (c : Dev nD) : Gen.V3 m c main_v9 = Cert.ReferenceIdeal.Read.val_main_v9 (F := F) (m ((c : Thread nD τ).loc main_arg0)) :=
  (Gen.V3_of m c main_v9 (by decide)).trans <| (Gen.V2_of m c main_v9 (by decide)).trans (V1_v9 m c)

theorem s4_v14 (W : Valuation τ sig (Elt F)) : StableHlo.after hostOps0_3 W main_v14
    = select (W main_v9) (W main_v13) (broadcastInDim S50000 ![] bcast_S_S50000 (id (W main_cst_4))) := by
  dsimp only [hostOps0_3]
  after_results
  rfl
theorem V4_v14 (c : Dev nD) : Gen.V4 m c main_v14 = Cert.ReferenceIdeal.Read.val_main_v14 (F := F) (m ((c : Thread nD τ).loc main_arg0)) := by
  refine (s4_v14 (Gen.V3 m c)).trans ?_
  rw [V3_v9, V3_v13, V3_cst_4]
  rfl
theorem V4_v1 (c : Dev nD) : Gen.V4 m c main_v1 = Cert.ReferenceIdeal.Read.val_main_v1 (F := F) (m ((c : Thread nD τ).loc main_arg0)) :=
  (Gen.V4_of m c main_v1 (by decide)).trans <| (Gen.V3_of m c main_v1 (by decide)).trans <| (Gen.V2_of m c main_v1 (by decide)).trans (V1_v1 m c)
theorem V4_v3 (c : Dev nD) : Gen.V4 m c main_v3 = Cert.ReferenceIdeal.Read.val_main_v3 (F := F) (m ((c : Thread nD τ).loc main_arg0)) :=
  (Gen.V4_of m c main_v3 (by decide)).trans <| (Gen.V3_of m c main_v3 (by decide)).trans <| (Gen.V2_of m c main_v3 (by decide)).trans (V1_v3 m c)

-- The edge weights as the kernel's program computes them from endpoints and normalisers.
def edgeW (s d : IVec S800000 32) (nrm : FVec F S50000 .f32) : FVec F S800000 .f32 :=
  mulf
    (Host.gather gather_S50000_S800000x1_S800000_n_0_n_n_0_1_1 nrm
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))
    (Host.gather gather_S50000_S800000x1_S800000_n_0_n_n_0_1_1 nrm
      (broadcastInDim S800000x1 ![0] bcast_S800000_S800000x1_0
        (select (cmpi .slt d (broadcastInDim S800000 ![] bcast_S_S800000 (constantI S_ 32 0#32)))
          (addi d (broadcastInDim S800000 ![] bcast_S_S800000 (constantI S_ 32 50000#32))) d)))

theorem edgeW_eq (x0 : IVec S2x800000 32) :
    edgeW (F := F) (Cert.ReferenceIdeal.Read.val_main_v1 (F := F) x0) (Cert.ReferenceIdeal.Read.val_main_v3 (F := F) x0) (Cert.ReferenceIdeal.Read.val_main_v14 (F := F) x0)
      = Cert.ReferenceIdeal.Read.val_main_v29 (F := F) x0 := rfl

theorem s5_v30 (W : Valuation τ sig (Elt F)) : (StableHlo.after hostOps0_4 W main_v30 : IVec S800000x1 32)
    = shapeCast S800000x1 (W main_v1 : IVec S800000 32) shapeCasts_S800000_S800000x1 := by
  dsimp only [hostOps0_4]
  after_results_simp
  rfl
theorem s5_v31 (W : Valuation τ sig (Elt F)) : (StableHlo.after hostOps0_4 W main_v31 : IVec S800000x1 32)
    = shapeCast S800000x1 (W main_v3 : IVec S800000 32) shapeCasts_S800000_S800000x1 := by
  dsimp only [hostOps0_4]
  after_results_simp
  rfl
theorem s5_v32 (W : Valuation τ sig (Elt F)) : (StableHlo.after hostOps0_4 W main_v32 : FVec F S800000x1 .f32)
    = shapeCast S800000x1 (edgeW (F := F) (W main_v1) (W main_v3) (W main_v14)) shapeCasts_S800000_S800000x1 := by
  dsimp only [hostOps0_4]
  after_results_simp
  rfl
theorem s5_c_8 (W : Valuation τ sig (Elt F)) : StableHlo.after hostOps0_4 W main_c_8 = constantI S_ 32 0#32 := by
  dsimp only [hostOps0_4]
  after_results_simp

theorem V6_v30 (c : Dev nD) : (Gen.V6 m c main_v30 : IVec S800000x1 32)
    = shapeCast S800000x1 (Cert.ReferenceIdeal.Read.val_main_v1 (F := F) (m ((c : Thread nD τ).loc main_arg0))) shapeCasts_S800000_S800000x1 := by
  refine (Gen.V6_of m c main_v30 (by decide)).trans <| (s5_v30 (Gen.V4 m c)).trans ?_
  rw [V4_v1]
theorem V6_v31 (c : Dev nD) : (Gen.V6 m c main_v31 : IVec S800000x1 32)
    = shapeCast S800000x1 (Cert.ReferenceIdeal.Read.val_main_v3 (F := F) (m ((c : Thread nD τ).loc main_arg0))) shapeCasts_S800000_S800000x1 := by
  refine (Gen.V6_of m c main_v31 (by decide)).trans <| (s5_v31 (Gen.V4 m c)).trans ?_
  rw [V4_v3]
theorem V6_v32 (c : Dev nD) : (Gen.V6 m c main_v32 : FVec F S800000x1 .f32)
    = shapeCast S800000x1 (Cert.ReferenceIdeal.Read.val_main_v29 (F := F) (m ((c : Thread nD τ).loc main_arg0))) shapeCasts_S800000_S800000x1 := by
  refine (Gen.V6_of m c main_v32 (by decide)).trans <| (s5_v32 (Gen.V4 m c)).trans ?_
  rw [V4_v1, V4_v3, V4_v14, edgeW_eq]

theorem s6_v33 (W : Valuation τ sig (Elt F)) : (StableHlo.after hostOps0_5 W main_v33 : FVec F S51200x64 .f32)
    = pad S51200x64 ![0, 0] ![1200, 0] ![0, 0] (W main_arg1 : FVec F S50000x64 .f32)
        (sitofp .f32 (W main_c_8 : IVec S_ 32) : FVec F S_ .f32) pads_S50000x64_S51200x64_012000_000 h_S_ := by
  dsimp only [hostOps0_5]
  after_results
  rfl
theorem V5_arg1 (c : Dev nD) : Gen.V5 m c main_arg1 = (m ((c : Thread nD τ).loc main_arg1)) :=
  (Gen.V5_of m c main_arg1 (by decide)).trans <| (Gen.V4_of m c main_arg1 (by decide)).trans <| (Gen.V3_of m c main_arg1 (by decide)).trans <|
    (Gen.V2_of m c main_arg1 (by decide)).trans <| (Gen.V1_of m c main_arg1 (by decide)).trans rfl
theorem V6_v33 (c : Dev nD) : (Gen.V6 m c main_v33 : FVec F S51200x64 .f32)
    = pad S51200x64 ![0, 0] ![1200, 0] ![0, 0] ((m ((c : Thread nD τ).loc main_arg1)) : FVec F S50000x64 .f32)
        (sitofp .f32 (constantI S_ 32 0#32) : FVec F S_ .f32) pads_S50000x64_S51200x64_012000_000 h_S_ := by
  refine (s6_v33 (Gen.V5 m c)).trans ?_
  rw [V5_arg1, show Gen.V5 m c main_c_8 = constantI S_ 32 0#32 from s5_c_8 (Gen.V4 m c)]

theorem s10_v42 (W : Valuation τ sig (Elt F)) : (StableHlo.after hostOps3 W main_v42 : FVec F S50000x64 .f32)
    = Host.divf
        (extractStridedSlice S50000x64 ![0, 0]
          (addf (addf (addf (W main_v33 : FVec F S51200x64 .f32) (W main_v34)) (W main_v35)) (W main_v36))
          slices_S51200x64_S50000x64_0_0)
        (broadcastInDim S50000x64 ![] bcast_S_S50000x64 (constant (F := F) S_ .f32 0x40800000#32)) := by
  dsimp only [hostOps3]
  after_results

end Abstract

section AtIdeal

open Idealize.ShloMosaic.ValueIdx

variable (m : (ℓ : Loc nD τ sig) → Buf (Elt Ideal) ℓ)

theorem col_apply {α : Type} (y : S800000.Idx → α) (e : Fin 800000) :
    shapeCast S800000x1 y shapeCasts_S800000_S800000x1 (ix2 e 0) = y (ix1 e) := by
  refine shapeCast_apply y shapeCasts_S800000_S800000x1 (ix2 e 0) (ix1 e) ?_
  rw [Shape.rowMajor_val_two, Shape.rowMajor_val_one]
  show e.val = e.val * 1 + 0
  omega

theorem ref_v1_apply (x0 : IVec S2x800000 32) (e : Fin 800000) :
    Cert.ReferenceIdeal.Read.val_main_v1 (F := Ideal) x0 (ix1 e) = x0 (ix2 0 e) := by
  rw [Cert.ReferenceIdeal.Read.val_main_v1_apply, Cert.ReferenceIdeal.Read.val_main_v0_apply]
  refine congrArg x0 (funext fun a => ?_)
  match a with
  | ⟨0, _⟩ => rfl
  | ⟨1, _⟩ => exact Fin.ext (Nat.mod_eq_of_lt e.isLt)

theorem ref_v3_apply (x0 : IVec S2x800000 32) (e : Fin 800000) :
    Cert.ReferenceIdeal.Read.val_main_v3 (F := Ideal) x0 (ix1 e) = x0 (ix2 1 e) := by
  rw [Cert.ReferenceIdeal.Read.val_main_v3_apply, Cert.ReferenceIdeal.Read.val_main_v2_apply]
  refine congrArg x0 (funext fun a => ?_)
  match a with
  | ⟨0, _⟩ => rfl
  | ⟨1, _⟩ => exact Fin.ext (Nat.mod_eq_of_lt e.isLt)

theorem src_eq (c : Dev nD) (e : Fin 800000) :
    (U6 (F := Ideal) m c main_v30 : Vec Ideal S800000x1 .i32) (ix2 e 0)
      = (m ((c : Thread nD τ).loc main_arg0) : IVec S2x800000 32) (ix2 0 e) := by
  show (Gen.V6 m c main_v30 : IVec S800000x1 32) (ix2 e 0) = _
  rw [V6_v30, col_apply, ref_v1_apply]

theorem dst_eq (c : Dev nD) (e : Fin 800000) :
    (U6 (F := Ideal) m c main_v31 : Vec Ideal S800000x1 .i32) (ix2 e 0)
      = (m ((c : Thread nD τ).loc main_arg0) : IVec S2x800000 32) (ix2 1 e) := by
  show (Gen.V6 m c main_v31 : IVec S800000x1 32) (ix2 e 0) = _
  rw [V6_v31, col_apply, ref_v3_apply]

theorem w_eq (c : Dev nD) (e : Fin 800000) :
    (U6 (F := Ideal) m c main_v32 : Vec Ideal S800000x1 .f32) (ix2 e 0)
      = Cert.ReferenceIdeal.Read.val_main_v29 (F := Ideal) (m ((c : Thread nD τ).loc main_arg0) : IVec S2x800000 32) (ix1 e) := by
  show (Gen.V6 m c main_v32 : FVec Ideal S800000x1 .f32) (ix2 e 0) = _
  rw [V6_v32, col_apply]

theorem pad_tab_apply (x : FVec Ideal S50000x64 .f32) (v : FVec Ideal S_ .f32) (n : Fin 51200) (d : Fin 64) :
    pad S51200x64 ![0, 0] ![1200, 0] ![0, 0] x v pads_S50000x64_S51200x64_012000_000 h_S_ (ix2 n d)
      = if h : n.val < 50000 then x (ix2 ⟨n.val, h⟩ d) else v ix0 := by
  by_cases h : n.val < 50000
  · rw [dif_pos h]
    refine pad_apply_of_inside ![0, 0] ![1200, 0] ![0, 0] x v pads_S50000x64_S51200x64_012000_000 h_S_ (ix2 n d)
      (ix2 ⟨n.val, h⟩ d) (fun a => ?_)
    match a with
    | ⟨0, _⟩ => show n.val = 0 + n.val * (0 + 1); omega
    | ⟨1, _⟩ => show d.val = 0 + d.val * (0 + 1); omega
  · rw [dif_neg h]
    rw [pad_apply_of_not_inside ![0, 0] ![1200, 0] ![0, 0] x v pads_S50000x64_S51200x64_012000_000 h_S_ (ix2 n d) 0
      (fun hin => h (by have h3 := hin.2.2; show n.val < 50000; change (n.val - 0) / (0 + 1) < 50000 at h3; omega))]
    exact congrArg v (eq_ix0 _)

theorem tab_eq (c : Dev nD) (n : Fin 51200) (d : Fin 64) :
    (U6 (F := Ideal) m c main_v33 : Vec Ideal S51200x64 .f32) (ix2 n d)
      = Cert.Spec.padX (fun n d => (m ((c : Thread nD τ).loc main_arg1) : FVec Ideal S50000x64 .f32) (ix2 n d)) n d := by
  show (Gen.V6 m c main_v33 : FVec Ideal S51200x64 .f32) (ix2 n d) = _
  rw [V6_v33, pad_tab_apply]
  unfold Cert.Spec.padX
  by_cases h : n.val < 50000
  · rw [dif_pos h, dif_pos h]
  · rw [dif_neg h, dif_neg h]
    exact sitofp_zero (φ := .f32)

theorem hostDivf_apply {s : Shape} {φ : FTy} (a b : FVec Ideal s φ) (i : s.Idx) : Host.divf a b i = Ideal.div (a i) (b i) := rfl

theorem tail_apply_of (c : Dev nD) (x33 x34 x35 x36 : FVec Ideal S51200x64 .f32)
    (h33 : (W9 m c main_v33 : FVec Ideal S51200x64 .f32) = x33) (h34 : (W9 m c main_v34 : FVec Ideal S51200x64 .f32) = x34)
    (h35 : (W9 m c main_v35 : FVec Ideal S51200x64 .f32) = x35) (h36 : (W9 m c main_v36 : FVec Ideal S51200x64 .f32) = x36)
    (n : Fin 50000) (d : Fin 64) :
    (W10 (F := Ideal) m c main_v42 : Vec Ideal S50000x64 .f32) (ix2 n d)
      = Ideal.div
          (((x33 (ix2 (⟨n.val, by omega⟩ : Fin 51200) d) + x34 (ix2 (⟨n.val, by omega⟩ : Fin 51200) d))
            + x35 (ix2 (⟨n.val, by omega⟩ : Fin 51200) d)) + x36 (ix2 (⟨n.val, by omega⟩ : Fin 51200) d))
          (Ideal.ofBits .f32 0x40800000#32) := by
  show (StableHlo.after hostOps3 (W9 m c) main_v42 : FVec Ideal S50000x64 .f32) (ix2 n d) = _
  rw [s10_v42, h33, h34, h35, h36, hostDivf_apply,
    extractStridedSlice_apply ![0, 0] (addf (addf (addf x33 x34) x35) x36) slices_S51200x64_S50000x64_0_0
      (ix2 n d : S50000x64.Idx) (ix2 (⟨n.val, by omega⟩ : Fin 51200) d : S51200x64.Idx)
      (fun a => match a with
        | ⟨0, _⟩ => by show n.val = 0 + n.val; omega
        | ⟨1, _⟩ => by show d.val = 0 + d.val; omega),
    broadcastInDim_apply ![] bcast_S_S50000x64 (constant (F := Ideal) S_ .f32 0x40800000#32)
      (ix2 n d : S50000x64.Idx) (ix0 : S_.Idx) (fun a => a.elim0)]
  rfl

-- The result: below row 50000 the four tables' sum, divided by 4.
theorem tail_apply (c : Dev nD) (n : Fin 50000) (d : Fin 64) :
    (W10 (F := Ideal) m c main_v42 : Vec Ideal S50000x64 .f32) (ix2 n d)
      = Ideal.div
          (@HAdd.hAdd EReal EReal EReal _ (@HAdd.hAdd EReal EReal EReal _ (@HAdd.hAdd EReal EReal EReal _
            ((W9 m c main_v33 : Vec Ideal S51200x64 .f32) (ix2 (⟨n.val, by omega⟩ : Fin 51200) d))
            ((W9 m c main_v34 : Vec Ideal S51200x64 .f32) (ix2 (⟨n.val, by omega⟩ : Fin 51200) d)))
            ((W9 m c main_v35 : Vec Ideal S51200x64 .f32) (ix2 (⟨n.val, by omega⟩ : Fin 51200) d)))
            ((W9 m c main_v36 : Vec Ideal S51200x64 .f32) (ix2 (⟨n.val, by omega⟩ : Fin 51200) d)))
          (Ideal.ofBits .f32 0x40800000#32) :=
  tail_apply_of m c _ _ _ _ rfl rfl rfl rfl n d

end AtIdeal

end Cert.KernelIdeal.Hand

end
-- ==== Proof.RefValue.lean ====
import proofs.«418351_j72971494359151_1_alg».proof.Proof.RefRun
import proofs.«418351_j72971494359151_1_alg».proof.Proof.Spec
import Idealize.ShloMosaic.PureOps.Ideal.Laws
import Idealize.ShloMosaic.Lib.ValueIdx
import Idealize.ShloMosaic.Lib.StableHlo.Predicate

noncomputable section

open scoped BigOperators

namespace Cert.ReferenceIdeal.RefValue

open Cert.ReferenceIdeal Cert.ReferenceIdeal.Gen Idealize.ShloMosaic Idealize.ShloMosaic.ValueIdx Idealize.ShloMosaic.TcCoe
  Idealize.SL.Sem Idealize.ShloMosaic.StableHlo

abbrev gatherRows (wf : GatherDims.WF S50000x64 S800000x1 S800000x64 [1] [0] [] [0] [] 1 ![1, 64]) :
    GatherDims S50000x64 S800000x1 S800000x64 where
  offsetDims := [1]
  collapsedSliceDims := [0]
  operandBatchingDims := []
  startIndicesBatchingDims := []
  startIndexMap := [0]
  indexVectorDim := 1
  sliceSizes := ![1, 64]
  wf := wf

theorem gatherRows_op0 {w : Nat}
    (wf : GatherDims.WF S50000x64 S800000x1 S800000x64 [1] [0] [] [0] [] 1 ![1, 64])
    (idx : IVec S800000x1 w) (e : Fin 800000) (c : Fin 64) :
    ((gatherRows wf).operandIdx (ix2 e c) idx 0).val = min (idx (ix2 e (0 : Fin 1))).toInt.toNat (50000 - 1) := by
  show (gatherRows wf).start (ix2 e c) idx 0 + (gatherRows wf).batchCoord (ix2 e c) 0 + (gatherRows wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (gatherRows wf).startIndexMap from List.mem_singleton.mpr rfl)]
  have hsi : (gatherRows wf).siIdx (ix2 e c) ⟨List.idxOf (0 : Fin 2) (gatherRows wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem gatherRows_op1 {w : Nat}
    (wf : GatherDims.WF S50000x64 S800000x1 S800000x64 [1] [0] [] [0] [] 1 ![1, 64])
    (idx : IVec S800000x1 w) (e : Fin 800000) (c : Fin 64) :
    ((gatherRows wf).operandIdx (ix2 e c) idx 1).val = c.val := by
  show (gatherRows wf).start (ix2 e c) idx 1 + (gatherRows wf).batchCoord (ix2 e c) 1 + (gatherRows wf).offCoord (ix2 e c) 1 = _
  rw [GatherDims.batchCoord_eq_zero _ _ _ List.not_mem_nil]
  unfold GatherDims.start
  rw [dif_neg (show ¬ (1 : Fin 2) ∈ (gatherRows wf).startIndexMap from (by decide : ¬ (1 : Fin 2) ∈ ([0] : List (Fin 2))))]
  unfold GatherDims.offCoord
  rw [dif_pos (show (1 : Fin 2) ∈ (gatherRows wf).sKept from (by decide : (1 : Fin 2) ∈ S50000x64.kept ([0] ++ [])))]
  simp only [Nat.add_zero, Nat.zero_add]
  rfl

-- The gather at (e, c): the table's row at edge e's start index (read signed, clamped), column c.
theorem gatherRows_apply {α : Type} {w : Nat}
    (wf : GatherDims.WF S50000x64 S800000x1 S800000x64 [1] [0] [] [0] [] 1 ![1, 64])
    (x : S50000x64.Idx → α) (idx : IVec S800000x1 w) (e : Fin 800000) (c : Fin 64) :
    Host.gather (gatherRows wf) x idx (ix2 e c)
      = x (ix2 (⟨min (idx (ix2 e (0 : Fin 1))).toInt.toNat (50000 - 1), by omega⟩ : Fin 50000) c) := by
  unfold Host.gather
  congr 1
  funext a
  refine Fin.ext ?_
  match a with
  | ⟨0, _⟩ => exact gatherRows_op0 wf idx e c
  | ⟨1, _⟩ => exact gatherRows_op1 wf idx e c

abbrev scatterRows (wf : ScatterDims.WF S50000x64 S800000x1 S800000x64 [1] [0] [0] 1) :
    ScatterDims S50000x64 S800000x1 S800000x64 where
  updateWindowDims := [1]
  insertedWindowDims := [0]
  scatterDimsToOperandDims := [0]
  indexVectorDim := 1
  wf := wf

theorem scatterRows_start0 {w : Nat} (wf : ScatterDims.WF S50000x64 S800000x1 S800000x64 [1] [0] [0] 1)
    (idx : IVec S800000x1 w) (e : Fin 800000) (c : Fin 64) :
    (scatterRows wf).start (ix2 e c) idx 0 = (idx (ix2 e (0 : Fin 1))).toInt := by
  unfold ScatterDims.start
  rw [dif_pos (show (0 : Fin 2) ∈ (scatterRows wf).scatterDimsToOperandDims from List.mem_singleton.mpr rfl)]
  have hsi : (scatterRows wf).siIdx (ix2 e c) ⟨List.idxOf (0 : Fin 2) (scatterRows wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scatterRows_start1 {w : Nat} (wf : ScatterDims.WF S50000x64 S800000x1 S800000x64 [1] [0] [0] 1)
    (idx : IVec S800000x1 w) (j : S800000x64.Idx) :
    (scatterRows wf).start j idx 1 = 0 := by
  unfold ScatterDims.start
  rw [dif_neg (show ¬ (1 : Fin 2) ∈ (scatterRows wf).scatterDimsToOperandDims from (by decide : ¬ (1 : Fin 2) ∈ ([0] : List (Fin 2))))]

theorem scatterRows_window0 (wf : ScatterDims.WF S50000x64 S800000x1 S800000x64 [1] [0] [0] 1)
    (j : S800000x64.Idx) : (scatterRows wf).window j 0 = 0 := by
  unfold ScatterDims.window
  rw [dif_neg (show ¬ (0 : Fin 2) ∈ (scatterRows wf).sKept from (by decide : ¬ (0 : Fin 2) ∈ S50000x64.kept [0]))]

theorem scatterRows_window1 (wf : ScatterDims.WF S50000x64 S800000x1 S800000x64 [1] [0] [0] 1)
    (e : Fin 800000) (c : Fin 64) : (scatterRows wf).window (ix2 e c) 1 = c.val := by
  unfold ScatterDims.window
  rw [dif_pos (show (1 : Fin 2) ∈ (scatterRows wf).sKept from (by decide : (1 : Fin 2) ∈ S50000x64.kept [0]))]
  rfl

theorem scatterRows_resultIdx_iff {w : Nat} (wf : ScatterDims.WF S50000x64 S800000x1 S800000x64 [1] [0] [0] 1)
    (idx : IVec S800000x1 w) (e : Fin 800000) (c' : Fin 64) (n : Fin 50000) (c : Fin 64) :
    (scatterRows wf).resultIdx? (ix2 e c') idx = some (ix2 n c)
      ↔ (idx (ix2 e (0 : Fin 1))).toInt = (n.val : Int) ∧ c' = c := by
  unfold ScatterDims.resultIdx?
  have h0 := scatterRows_start0 wf idx e c'
  have h1 := scatterRows_start1 wf idx (ix2 e c')
  have w0 := scatterRows_window0 wf (ix2 e c')
  have w1 := scatterRows_window1 wf e c'
  split
  · next h =>
    rw [Option.some.injEq]
    constructor
    · intro heq
      have e0 := congrArg (fun f : S50000x64.Idx => (f 0).val) heq
      have e1 := congrArg (fun f : S50000x64.Idx => (f 1).val) heq
      simp only [h0, h1, w0, w1] at e0 e1
      have hh := (h 0).1
      rw [h0, w0] at hh
      refine ⟨?_, Fin.ext ?_⟩
      · change ((idx (ix2 e (0 : Fin 1))).toInt + ((0 : Nat) : Int)).toNat = n.val at e0
        omega
      · change ((0 : Int) + (c'.val : Int)).toNat = c.val at e1
        omega
    · rintro ⟨hn, rfl⟩
      funext a
      refine Fin.ext ?_
      match a with
      | ⟨0, _⟩ =>
        show ((scatterRows wf).start (ix2 e c') idx 0 + ((scatterRows wf).window (ix2 e c') 0 : Nat)).toNat = n.val
        rw [h0, w0, hn]; omega
      | ⟨1, _⟩ =>
        show ((scatterRows wf).start (ix2 e c') idx 1 + ((scatterRows wf).window (ix2 e c') 1 : Nat)).toNat = c'.val
        rw [h1, w1]; omega
  · next h =>
    constructor
    · intro heq; exact absurd heq (by simp)
    · rintro ⟨hn, rfl⟩
      exfalso
      apply h
      intro a
      match a with
      | ⟨0, _⟩ =>
        show 0 ≤ (scatterRows wf).start (ix2 e c') idx 0 + ((scatterRows wf).window (ix2 e c') 0 : Nat)
          ∧ (scatterRows wf).start (ix2 e c') idx 0 + ((scatterRows wf).window (ix2 e c') 0 : Nat) < ((50000 : Nat) : Int)
        rw [h0, w0, hn]; have := n.isLt; omega
      | ⟨1, _⟩ =>
        show 0 ≤ (scatterRows wf).start (ix2 e c') idx 1 + ((scatterRows wf).window (ix2 e c') 1 : Nat)
          ∧ (scatterRows wf).start (ix2 e c') idx 1 + ((scatterRows wf).window (ix2 e c') 1 : Nat) < ((64 : Nat) : Int)
        rw [h1, w1]; have := c'.isLt; omega

-- The scatter-add at (n, c): the operand's entry plus the updates of the edges whose row number is n.
theorem scatterRows_apply {w : Nat} (wf : ScatterDims.WF S50000x64 S800000x1 S800000x64 [1] [0] [0] 1)
    (x : S50000x64.Idx → EReal) (idx : IVec S800000x1 w) (upd : S800000x64.Idx → EReal) (n : Fin 50000) (c : Fin 64) :
    Ideal.hostScatterAdd (scatterRows wf) x idx upd (ix2 n c)
      = x (ix2 n c) + ∑ e : Fin 800000, if (idx (ix2 e (0 : Fin 1))).toInt = (n.val : Int) then upd (ix2 e c) else 0 := by
  unfold Ideal.hostScatterAdd
  refine congrArg (fun t => x (ix2 n c) + t) ?_
  rw [Finset.sum_filter, sum_idx2]
  refine Finset.sum_congr rfl fun e _ => ?_
  simp only [scatterRows_resultIdx_iff]
  by_cases hP : (idx (ix2 e (0 : Fin 1))).toInt = (n.val : Int)
  · simp only [hP, true_and, if_true]
    rw [Finset.sum_ite_eq' Finset.univ c (fun c' => upd (ix2 e c'))]
    simp
  · simp only [hP, false_and, if_false]
    exact Finset.sum_const_zero

theorem wrap_id (a : BitVec 32) (ha : a.toNat < 50000) :
    Scalar.select (IntOp.cmpi .slt a 0#32) (IntOp.addi a 50000#32) a = a := by
  have hn : ¬ IntOp.cmpi .slt a 0#32 = 1#1 := by
    rw [Idealize.ShloMosaic.StableHlo.Predicate.slt_iff_toNat (by omega) (by decide)]
    simp
  unfold Scalar.select
  exact if_neg hn

theorem clamp_id (a : BitVec 32) (ha : a.toNat < 50000) : min a.toInt.toNat (50000 - 1) = a.toNat := by
  rw [Idealize.ShloMosaic.StableHlo.Predicate.toInt_eq_toNat_of_lt (by omega)]
  simp only [Int.toNat_natCast]
  omega

theorem toInt_eq_iff (a : BitVec 32) (n : Nat) (hn : n < 50000) : a.toInt = (n : Int) ↔ a = BitVec.ofNat 32 n := by
  constructor
  · intro h
    apply BitVec.eq_of_toNat_eq
    rw [BitVec.toNat_ofNat, Nat.mod_eq_of_lt (by omega)]
    rw [BitVec.toInt_eq_msb_cond] at h
    have hlt := a.isLt
    split at h <;> omega
  · rintro rfl
    exact Idealize.ShloMosaic.StableHlo.Predicate.toInt_ofNat_small n (by omega)

-- On row numbers below 50000 wrap and clamp are identities, so one reference round is `propRef`.
theorem round_eq (si di : IVec S800000x1 32) (wv : FVec Ideal S800000x64 .f32) (z x : FVec Ideal S50000x64 .f32)
    (src dst : Fin 800000 → BitVec 32) (w : Fin 800000 → EReal)
    (hsi : ∀ e, si (ix2 e (0 : Fin 1)) = src e) (hdi : ∀ e, di (ix2 e (0 : Fin 1)) = dst e)
    (hwv : ∀ e c, wv (ix2 e c) = w e) (hz : ∀ i, z i = 0) (hsrc : ∀ e, (src e).toNat < 50000)
    (n : Fin 50000) (c : Fin 64) :
    Host.scatterAdd (F := Ideal) scatter_S50000x64_S800000x1_S800000x64_1_0_0_1 z di
        (mulf (Host.gather gather_S50000x64_S800000x1_S800000x64_1_0_n_n_0_1_164 x si) wv) (ix2 n c)
      = Cert.Spec.propRef src dst w (fun n d => x (ix2 n d)) n c := by
  show Ideal.hostScatterAdd (scatterRows Facts₀.scatter_S50000x64_S800000x1_S800000x64_1_0_0_1_wf) z di
      (mulf (Host.gather (gatherRows Facts₀.gather_S50000x64_S800000x1_S800000x64_1_0_n_n_0_1_164_wf) x si) wv) (ix2 n c) = _
  rw [scatterRows_apply, hz, zero_add]
  unfold Cert.Spec.propRef
  refine Finset.sum_congr rfl fun e _ => ?_
  have hg : x (ix2 (⟨min (si (ix2 e (0 : Fin 1))).toInt.toNat (50000 - 1), by omega⟩ : Fin 50000) c)
      = x (ix2 (⟨(src e).toNat, hsrc e⟩ : Fin 50000) c) :=
    congrArg (fun r : Fin 50000 => x (ix2 r c)) (Fin.ext (by
      show min (si (ix2 e (0 : Fin 1))).toInt.toNat (50000 - 1) = (src e).toNat
      rw [hsi e]; exact clamp_id (src e) (hsrc e)))
  rw [hdi e, mulf_apply, gatherRows_apply, hg, hwv e c, dif_pos (hsrc e)]
  by_cases hd : dst e = BitVec.ofNat 32 n.val
  · rw [if_pos hd, if_pos ((toInt_eq_iff (dst e) n.val n.isLt).2 hd)]
  · rw [if_neg hd, if_neg (fun h => hd ((toInt_eq_iff (dst e) n.val n.isLt).1 h))]

def refSrc (a0 : IVec S2x800000 32) : Fin 800000 → BitVec 32 := fun e => a0 (ix2 (0 : Fin 2) e)

def refDst (a0 : IVec S2x800000 32) : Fin 800000 → BitVec 32 := fun e => a0 (ix2 (1 : Fin 2) e)

def wR (a0 : IVec S2x800000 32) : Fin 800000 → EReal := fun e => Read.val_main_v29 (F := Ideal) a0 (ix1 e)

def p1 (a0 : IVec S2x800000 32) (a1 : FVec Ideal S50000x64 .f32) : Fin 50000 → Fin 64 → EReal :=
  Cert.Spec.propRef (refSrc a0) (refDst a0) (wR a0) (fun n d => a1 (ix2 n d))

def p2 (a0 : IVec S2x800000 32) (a1 : FVec Ideal S50000x64 .f32) : Fin 50000 → Fin 64 → EReal :=
  Cert.Spec.propRef (refSrc a0) (refDst a0) (wR a0) (p1 a0 a1)

def p3 (a0 : IVec S2x800000 32) (a1 : FVec Ideal S50000x64 .f32) : Fin 50000 → Fin 64 → EReal :=
  Cert.Spec.propRef (refSrc a0) (refDst a0) (wR a0) (p2 a0 a1)

theorem v1_at (a0 : IVec S2x800000 32) (e : Fin 800000) : Read.val_main_v1 (F := Ideal) a0 (ix1 e) = refSrc a0 e := by
  rw [Read.val_main_v1_apply, Read.val_main_v0_apply]
  unfold refSrc
  refine congrArg a0 (funext fun a => Fin.ext ?_)
  match a with
  | ⟨0, _⟩ => rfl
  | ⟨1, _⟩ => exact Nat.mod_eq_of_lt e.isLt

theorem v3_at (a0 : IVec S2x800000 32) (e : Fin 800000) : Read.val_main_v3 (F := Ideal) a0 (ix1 e) = refDst a0 e := by
  rw [Read.val_main_v3_apply, Read.val_main_v2_apply]
  unfold refDst
  refine congrArg a0 (funext fun a => Fin.ext ?_)
  match a with
  | ⟨0, _⟩ => rfl
  | ⟨1, _⟩ => exact Nat.mod_eq_of_lt e.isLt

theorem v35_at (a0 : IVec S2x800000 32) (h0 : ∀ e : Fin 800000, (refSrc a0 e).toNat < 50000) (e : Fin 800000) :
    Read.val_main_v35 (F := Ideal) a0 (ix2 e (0 : Fin 1)) = refSrc a0 e := by
  have hi : Read.idx_main_v35 (ix2 e (0 : Fin 1)) = ix1 e := by
    funext a; match a with | ⟨0, _⟩ => rfl
  rw [Read.val_main_v35_apply, hi, Read.val_main_v34_apply, Read.val_main_v31_apply, Read.val_main_v33_apply,
    Read.val_main_v30_apply, Read.val_main_v32_apply, Read.val_main_c_8_apply, Read.val_main_c_9_apply, v1_at]
  exact wrap_id _ (h0 e)

theorem v48_at (a0 : IVec S2x800000 32) (h0 : ∀ e : Fin 800000, (refSrc a0 e).toNat < 50000) (e : Fin 800000) :
    Read.val_main_v48 (F := Ideal) a0 (ix2 e (0 : Fin 1)) = refSrc a0 e := by
  have hi : Read.idx_main_v48 (ix2 e (0 : Fin 1)) = ix1 e := by
    funext a; match a with | ⟨0, _⟩ => rfl
  rw [Read.val_main_v48_apply, hi, Read.val_main_v47_apply, Read.val_main_v44_apply, Read.val_main_v46_apply,
    Read.val_main_v43_apply, Read.val_main_v45_apply, Read.val_main_c_11_apply, Read.val_main_c_12_apply, v1_at]
  exact wrap_id _ (h0 e)

theorem v61_at (a0 : IVec S2x800000 32) (h0 : ∀ e : Fin 800000, (refSrc a0 e).toNat < 50000) (e : Fin 800000) :
    Read.val_main_v61 (F := Ideal) a0 (ix2 e (0 : Fin 1)) = refSrc a0 e := by
  have hi : Read.idx_main_v61 (ix2 e (0 : Fin 1)) = ix1 e := by
    funext a; match a with | ⟨0, _⟩ => rfl
  rw [Read.val_main_v61_apply, hi, Read.val_main_v60_apply, Read.val_main_v57_apply, Read.val_main_v59_apply,
    Read.val_main_v56_apply, Read.val_main_v58_apply, Read.val_main_c_14_apply, Read.val_main_c_15_apply, v1_at]
  exact wrap_id _ (h0 e)

theorem v41_at (a0 : IVec S2x800000 32) (e : Fin 800000) :
    Read.val_main_v41 (F := Ideal) a0 (ix2 e (0 : Fin 1)) = refDst a0 e := by
  have hi : Read.idx_main_v41 (ix2 e (0 : Fin 1)) = ix1 e := by
    funext a; match a with | ⟨0, _⟩ => rfl
  rw [Read.val_main_v41_apply, hi, v3_at]

theorem v54_at (a0 : IVec S2x800000 32) (e : Fin 800000) :
    Read.val_main_v54 (F := Ideal) a0 (ix2 e (0 : Fin 1)) = refDst a0 e := by
  have hi : Read.idx_main_v54 (ix2 e (0 : Fin 1)) = ix1 e := by
    funext a; match a with | ⟨0, _⟩ => rfl
  rw [Read.val_main_v54_apply, hi, v3_at]

theorem v67_at (a0 : IVec S2x800000 32) (e : Fin 800000) :
    Read.val_main_v67 (F := Ideal) a0 (ix2 e (0 : Fin 1)) = refDst a0 e := by
  have hi : Read.idx_main_v67 (ix2 e (0 : Fin 1)) = ix1 e := by
    funext a; match a with | ⟨0, _⟩ => rfl
  rw [Read.val_main_v67_apply, hi, v3_at]

theorem v38_at (a0 : IVec S2x800000 32) (e : Fin 800000) (c : Fin 64) :
    Read.val_main_v38 (F := Ideal) a0 (ix2 e c) = wR a0 e := by
  have hi : Read.idx_main_v37 (Read.idx_main_v38 (ix2 e c)) = ix1 e := by
    funext a; match a with | ⟨0, _⟩ => rfl
  rw [Read.val_main_v38_apply, Read.val_main_v37_apply, hi]
  rfl

theorem v51_at (a0 : IVec S2x800000 32) (e : Fin 800000) (c : Fin 64) :
    Read.val_main_v51 (F := Ideal) a0 (ix2 e c) = wR a0 e := by
  have hi : Read.idx_main_v50 (Read.idx_main_v51 (ix2 e c)) = ix1 e := by
    funext a; match a with | ⟨0, _⟩ => rfl
  rw [Read.val_main_v51_apply, Read.val_main_v50_apply, hi]
  rfl

theorem v64_at (a0 : IVec S2x800000 32) (e : Fin 800000) (c : Fin 64) :
    Read.val_main_v64 (F := Ideal) a0 (ix2 e c) = wR a0 e := by
  have hi : Read.idx_main_v63 (Read.idx_main_v64 (ix2 e c)) = ix1 e := by
    funext a; match a with | ⟨0, _⟩ => rfl
  rw [Read.val_main_v64_apply, Read.val_main_v63_apply, hi]
  rfl

theorem v40_at (i : S50000x64.Idx) : Read.val_main_v40 (F := Ideal) i = 0 := by
  rw [Read.val_main_v40_apply, Read.val_main_cst_10_apply]
  exact Ideal.ofBits_zero_f32

theorem v53_at (i : S50000x64.Idx) : Read.val_main_v53 (F := Ideal) i = 0 := by
  rw [Read.val_main_v53_apply, Read.val_main_cst_13_apply]
  exact Ideal.ofBits_zero_f32

theorem v66_at (i : S50000x64.Idx) : Read.val_main_v66 (F := Ideal) i = 0 := by
  rw [Read.val_main_v66_apply, Read.val_main_cst_16_apply]
  exact Ideal.ofBits_zero_f32

theorem v42_at (a0 : IVec S2x800000 32) (a1 : FVec Ideal S50000x64 .f32)
    (h0 : ∀ e : Fin 800000, (refSrc a0 e).toNat < 50000) (n : Fin 50000) (c : Fin 64) :
    Read.val_main_v42 (F := Ideal) a0 a1 (ix2 n c) = p1 a0 a1 n c := by
  unfold Read.val_main_v42 Read.val_main_v39 Read.val_main_v36 p1
  exact round_eq _ _ _ _ a1 (refSrc a0) (refDst a0) (wR a0) (v35_at a0 h0) (v41_at a0) (v38_at a0) v40_at h0 n c

theorem v55_at (a0 : IVec S2x800000 32) (a1 : FVec Ideal S50000x64 .f32)
    (h0 : ∀ e : Fin 800000, (refSrc a0 e).toNat < 50000) (n : Fin 50000) (c : Fin 64) :
    Read.val_main_v55 (F := Ideal) a0 a1 (ix2 n c) = p2 a0 a1 n c := by
  have hp : (fun n d => Read.val_main_v42 (F := Ideal) a0 a1 (ix2 n d)) = p1 a0 a1 :=
    funext fun n => funext fun d => v42_at a0 a1 h0 n d
  unfold Read.val_main_v55 Read.val_main_v52 Read.val_main_v49 p2
  rw [← hp]
  exact round_eq _ _ _ _ (Read.val_main_v42 (F := Ideal) a0 a1) (refSrc a0) (refDst a0) (wR a0) (v48_at a0 h0) (v54_at a0)
    (v51_at a0) v53_at h0 n c

theorem v68_at (a0 : IVec S2x800000 32) (a1 : FVec Ideal S50000x64 .f32)
    (h0 : ∀ e : Fin 800000, (refSrc a0 e).toNat < 50000) (n : Fin 50000) (c : Fin 64) :
    Read.val_main_v68 (F := Ideal) a0 a1 (ix2 n c) = p3 a0 a1 n c := by
  have hp : (fun n d => Read.val_main_v55 (F := Ideal) a0 a1 (ix2 n d)) = p2 a0 a1 :=
    funext fun n => funext fun d => v55_at a0 a1 h0 n d
  unfold Read.val_main_v68 Read.val_main_v65 Read.val_main_v62 p3
  rw [← hp]
  exact round_eq _ _ _ _ (Read.val_main_v55 (F := Ideal) a0 a1) (refSrc a0) (refDst a0) (wR a0) (v61_at a0 h0) (v67_at a0)
    (v64_at a0) v66_at h0 n c

-- The reference's result at (n, d): (x + p1 + p2 + p3) / 4.
theorem result_apply (a0 : IVec S2x800000 32) (a1 : FVec Ideal S50000x64 .f32)
    (h0 : ∀ e : Fin 800000, (a0 (ValueIdx.ix2 (0 : Fin 2) e)).toNat < 50000)
    (h1 : ∀ e : Fin 800000, (a0 (ValueIdx.ix2 (1 : Fin 2) e)).toNat < 50000)
    (n : Fin 50000) (d : Fin 64) :
    Cert.ReferenceIdeal.Read.val_main_v73 (F := Ideal) a0 a1 (ValueIdx.ix2 n d)
      = Ideal.div (((a1 (ValueIdx.ix2 n d) + p1 a0 a1 n d) + p2 a0 a1 n d) + p3 a0 a1 n d)
          (Ideal.ofBits .f32 0x40800000#32) := by
  rw [Read.val_main_v73_apply, Read.val_main_v71_apply, Read.val_main_v70_apply, Read.val_main_v69_apply,
    Read.val_main_v72_apply, Read.val_main_cst_17_apply, v42_at a0 a1 h0, v55_at a0 a1 h0, v68_at a0 a1 h0]
  rfl

theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v73)
          = Cert.ReferenceIdeal.Read.val_main_v73 (F := Ideal) (m ((c.tc : Thread nD τ).loc main_arg0))
              (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (Cert.ReferenceIdeal.Read.val_main_v73_eq m c), (h c).2.1, (h c).2.2⟩)
    (Cert.ReferenceIdeal.Value.run m ρ)

end Cert.ReferenceIdeal.RefValue

end
-- ==== Proof.PreRange.lean ====
import proofs.«418351_j72971494359151_1_alg».proof.Defs
import proofs.«418351_j72971494359151_1_alg».proof.Proof.Gen.Pre_finite_inputs
import Idealize.ShloMosaic.Lib.ReduceAll
import Idealize.ShloMosaic.Lib.StableHlo.Predicate
import Idealize.ShloMosaic.Lib.ValueIdx

set_option maxRecDepth 16384

noncomputable section

namespace Cert.Proof.PreRange

open Idealize.ShloMosaic Idealize.SL.Sem

attribute [local instance] Cert.Pre_finite_inputs.Gen.facts

local instance : Subsingleton Cert.Pre_finite_inputs.S_.Idx := ⟨fun a b => funext fun d => d.elim0⟩

theorem toNat_lt_of_signed (w : BitVec 32) (n : Nat) (hn : n < 2 ^ 31) (h0 : IntOp.cmpi .sge w (0#32) = 1#1)
    (h1 : IntOp.cmpi .slt w (BitVec.ofNat 32 n) = 1#1) : w.toNat < n := by
  rw [IntOp.cmpi_sge, show (0#32 : BitVec 32).toInt = 0 from BitVec.toInt_zero] at h0
  rw [IntOp.cmpi_slt, StableHlo.Predicate.toInt_ofNat_small n hn] at h1
  have h2 : 2 * w.toNat < 2 ^ 32 := BitVec.toInt_pos_iff.1 h0
  rw [BitVec.toInt_eq_toNat_of_lt h2] at h1
  exact_mod_cast h1

-- The precondition's range test puts every edge endpoint below 50000.
theorem range_of_fn (a0 : IVec Cert.Pre_finite_inputs.S2x800000 32) {F : FTy → Type} [FloatOps F]
    (a1 : FVec F Cert.Pre_finite_inputs.S50000x64 .f32)
    (h : Cert.Pre_finite_inputs.fn (F := F) a0 a1 = fun _ => 1#1) (r : Fin 2) (e : Fin 800000) :
    (a0 (ValueIdx.ix2 r e)).toNat < 50000 := by
  have h0 := congrFun h ValueIdx.ix0
  dsimp only [Cert.Pre_finite_inputs.fn] at h0
  obtain ⟨-, h9⟩ := IntOp.andi_eq_one.1 h0
  have h8 := Host.reduce_andi_all _ _ _ _ _ h9 (ValueIdx.ix2 r e)
  obtain ⟨h5, h7⟩ := IntOp.andi_eq_one.1 h8
  exact toNat_lt_of_signed _ 50000 (by norm_num) h5 h7

theorem range_KernelIdeal (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (r : Fin 2) (e : Fin 800000) :
    ((m ((c.tc : Thread Cert.KernelIdeal.nD Cert.KernelIdeal.τ).loc Cert.KernelIdeal.main_arg0) : IVec Cert.KernelIdeal.S2x800000 32)
      (ValueIdx.ix2 r e)).toNat < 50000 :=
  range_of_fn _ _ (h c) r e

end Cert.Proof.PreRange

end
-- ==== Proof.KernelIdealTotal.lean ====
import proofs.«418351_j72971494359151_1_alg».proof.Proof.KernelIdealRxRunAll
import proofs.«418351_j72971494359151_1_alg».proof.Proof.KernelIdealR0Acc
import proofs.«418351_j72971494359151_1_alg».proof.Proof.KernelIdealR1Acc
import proofs.«418351_j72971494359151_1_alg».proof.Proof.KernelIdealR2Acc
import proofs.«418351_j72971494359151_1_alg».proof.Proof.KernelIdealHost
import proofs.«418351_j72971494359151_1_alg».proof.Proof.RefValue
import proofs.«418351_j72971494359151_1_alg».proof.Proof.SpecMath
import proofs.«418351_j72971494359151_1_alg».proof.Proof.PreRange

noncomputable section

namespace Cert.KernelIdeal.Hand

open Idealize.ShloMosaic Idealize.ShloMosaic.TcCoe Idealize.SL.Sem Idealize.ShloMosaic.ValueIdx
open Cert.KernelIdeal Cert.KernelIdeal.Gen Cert.Spec
open Cert.ReferenceIdeal.RefValue (refSrc refDst wR p1 p2 p3)

variable (m : (ℓ : Loc nD τ sig) → Buf (Elt Ideal) ℓ) (c : Dev nD)

abbrev a0 : IVec S2x800000 32 := m ((c : Thread nD τ).loc main_arg0)
abbrev a1 : FVec Ideal S50000x64 .f32 := m ((c : Thread nD τ).loc main_arg1)

theorem srcOf6 : srcOf (U6 m) c = refSrc (a0 m c) := funext fun e => src_eq m c e
theorem dstOf6 : dstOf (U6 m) c = refDst (a0 m c) := funext fun e => dst_eq m c e
theorem wOf6 : wOf (U6 m) c = wR (a0 m c) := funext fun e => w_eq m c e
theorem tabOf6 : tabOf (U6 m) c = padX (fun n d => a1 m c (ix2 n d)) := funext fun n => funext fun d => tab_eq m c n d

theorem U7_v30 : U7 m c main_v30 = U6 m c main_v30 := (W7_arr m c 0).trans (arr0_0_final (U6 m) c)
theorem U7_v31 : U7 m c main_v31 = U6 m c main_v31 := (W7_arr m c 1).trans (arr0_1_final (U6 m) c)
theorem U7_v32 : U7 m c main_v32 = U6 m c main_v32 := (W7_arr m c 2).trans (arr0_2_final (U6 m) c)
theorem U8_v30 : U8 m c main_v30 = U7 m c main_v30 := (W8_arr m c 0).trans (R1.arr1_0_final (U7 m) c)
theorem U8_v31 : U8 m c main_v31 = U7 m c main_v31 := (W8_arr m c 1).trans (R1.arr1_1_final (U7 m) c)
theorem U8_v32 : U8 m c main_v32 = U7 m c main_v32 := (W8_arr m c 2).trans (R1.arr1_2_final (U7 m) c)

theorem srcOf7 : R1.srcOf (U7 m) c = refSrc (a0 m c) := by
  rw [← srcOf6 m c]; funext e; show (U7 m c main_v30 : Vec Ideal S800000x1 .i32) (ix2 e 0) = _; rw [U7_v30]
theorem dstOf7 : R1.dstOf (U7 m) c = refDst (a0 m c) := by
  rw [← dstOf6 m c]; funext e; show (U7 m c main_v31 : Vec Ideal S800000x1 .i32) (ix2 e 0) = _; rw [U7_v31]
theorem wOf7 : R1.wOf (U7 m) c = wR (a0 m c) := by
  rw [← wOf6 m c]; funext e; show (U7 m c main_v32 : Vec Ideal S800000x1 .f32) (ix2 e 0) = _; rw [U7_v32]
theorem srcOf8 : R2.srcOf (U8 m) c = refSrc (a0 m c) := by
  rw [← srcOf7 m c]; funext e; show (U8 m c main_v30 : Vec Ideal S800000x1 .i32) (ix2 e 0) = _; rw [U8_v30]
theorem dstOf8 : R2.dstOf (U8 m) c = refDst (a0 m c) := by
  rw [← dstOf7 m c]; funext e; show (U8 m c main_v31 : Vec Ideal S800000x1 .i32) (ix2 e 0) = _; rw [U8_v31]
theorem wOf8 : R2.wOf (U8 m) c = wR (a0 m c) := by
  rw [← wOf7 m c]; funext e; show (U8 m c main_v32 : Vec Ideal S800000x1 .f32) (ix2 e 0) = _; rw [U8_v32]

variable (hs : ∀ e : Fin 800000, (refSrc (a0 m c) e).toNat < 50000) (hd : ∀ e : Fin 800000, (refDst (a0 m c) e).toNat < 50000)

include hs hd in

-- Round 1's output array is the reference's first round, padded; rounds 2 and 3 likewise on the previous result.
theorem round1 (n : Fin 51200) (d : Fin 64) :
    ((dat0 (F := Ideal) (U6 m) c).arrAt 4 cfg0.N : Vec Ideal S51200x64 .f32) (ix2 n d) = padX (p1 (a0 m c) (a1 m c)) n d := by
  rw [region0_value, srcOf6, dstOf6, wOf6, tabOf6, propPad_padX _ _ _ _ hs hd]; rfl

include hs hd in
theorem tabOf7 : R1.tabOf (U7 m) c = padX (p1 (a0 m c) (a1 m c)) := by
  funext n d
  show (U7 m c main_v34 : Vec Ideal S51200x64 .f32) (ix2 n d) = _
  rw [show U7 m c main_v34 = (dat0 (F := Ideal) (U6 m) c).arrAt 4 cfg0.N from W7_arr m c 4]
  exact round1 m c hs hd n d

include hs hd in

theorem round2 (n : Fin 51200) (d : Fin 64) :
    ((dat1 (F := Ideal) (U7 m) c).arrAt 4 cfg1.N : Vec Ideal S51200x64 .f32) (ix2 n d) = padX (p2 (a0 m c) (a1 m c)) n d := by
  rw [R1.region1_value, srcOf7, dstOf7, wOf7, tabOf7 m c hs hd, propPad_padX _ _ _ _ hs hd]; rfl

include hs hd in
theorem tabOf8 : R2.tabOf (U8 m) c = padX (p2 (a0 m c) (a1 m c)) := by
  funext n d
  show (U8 m c main_v35 : Vec Ideal S51200x64 .f32) (ix2 n d) = _
  rw [show U8 m c main_v35 = (dat1 (F := Ideal) (U7 m) c).arrAt 4 cfg1.N from W8_arr m c 4]
  exact round2 m c hs hd n d

include hs hd in

theorem round3 (n : Fin 51200) (d : Fin 64) :
    ((dat2 (F := Ideal) (U8 m) c).arrAt 4 cfg2.N : Vec Ideal S51200x64 .f32) (ix2 n d) = padX (p3 (a0 m c) (a1 m c)) n d := by
  rw [R2.region2_value, srcOf8, dstOf8, wOf8, tabOf8 m c hs hd, propPad_padX _ _ _ _ hs hd]; rfl

theorem W9_v33 : W9 m c main_v33 = U6 m c main_v33 :=
  (W9_of_ne m c main_v33 (by decide)).trans <| (W8_of_ne m c main_v33 (by decide)).trans <| (W7_arr m c 3).trans (arr0_3_final (U6 m) c)
theorem W9_v34 : W9 m c main_v34 = (dat0 (F := Ideal) (U6 m) c).arrAt 4 cfg0.N :=
  (W9_of_ne m c main_v34 (by decide)).trans <| (W8_arr m c 3).trans <| (R1.arr1_3_final (U7 m) c).trans (W7_arr m c 4)
theorem W9_v35 : W9 m c main_v35 = (dat1 (F := Ideal) (U7 m) c).arrAt 4 cfg1.N :=
  (W9_arr m c 3).trans <| (R2.arr2_3_final (U8 m) c).trans (W8_arr m c 4)
theorem W9_v36 : W9 m c main_v36 = (dat2 (F := Ideal) (U8 m) c).arrAt 4 cfg2.N := W9_arr m c 4

include hs hd in

-- Entry by entry the kernel's result is the reference's.
theorem total_apply (n : Fin 50000) (d : Fin 64) :
    (W10 (F := Ideal) m c main_v42 : Vec Ideal S50000x64 .f32) (ix2 n d)
      = Cert.ReferenceIdeal.Read.val_main_v73 (F := Ideal) (a0 m c) (a1 m c) (ix2 n d) := by
  have hn : (⟨n.val, by omega⟩ : Fin 51200).val < 50000 := n.isLt
  rw [tail_apply_of m c (U6 m c main_v33 : FVec Ideal S51200x64 .f32)
        ((dat0 (F := Ideal) (U6 m) c).arrAt 4 cfg0.N : FVec Ideal S51200x64 .f32)
        ((dat1 (F := Ideal) (U7 m) c).arrAt 4 cfg1.N : FVec Ideal S51200x64 .f32)
        ((dat2 (F := Ideal) (U8 m) c).arrAt 4 cfg2.N : FVec Ideal S51200x64 .f32)
        (W9_v33 m c) (W9_v34 m c) (W9_v35 m c) (W9_v36 m c) n d,
    Cert.ReferenceIdeal.RefValue.result_apply (a0 m c) (a1 m c) hs hd n d]
  rw [show (U6 m c main_v33 : FVec Ideal S51200x64 .f32) (ix2 (⟨n.val, by omega⟩ : Fin 51200) d) = a1 m c (ix2 n d) from
        (tab_eq m c _ d).trans (padX_of_lt _ _ hn d),
    round1 m c hs hd, round2 m c hs hd, round3 m c hs hd,
    padX_of_lt _ _ hn d, padX_of_lt _ _ hn d, padX_of_lt _ _ hn d]

include hs hd in
theorem total_eq : (W10 (F := Ideal) m c main_v42 : Vec Ideal S50000x64 .f32)
    = Cert.ReferenceIdeal.Read.val_main_v73 (F := Ideal) (a0 m c) (a1 m c) := by
  funext j
  obtain ⟨n, d, rfl⟩ : ∃ (n : Fin 50000) (d : Fin 64), j = ix2 n d := ⟨j 0, j 1, eq_ix2 j⟩
  exact total_apply m c hs hd n d

end Cert.KernelIdeal.Hand

end
-- ==== Proof.lean ====
import proofs.«418351_j72971494359151_1_alg».proof.Defs
import proofs.«418351_j72971494359151_1_alg».proof.Proof.Gen.Kernel
import proofs.«418351_j72971494359151_1_alg».proof.Proof.Gen.KernelIdeal
import proofs.«418351_j72971494359151_1_alg».proof.Proof.Gen.ReferenceIdeal
import proofs.«418351_j72971494359151_1_alg».proof.Proof.Gen.Pre_finite_inputs
import proofs.«418351_j72971494359151_1_alg».proof.Proof.KernelRxRunAll
import proofs.«418351_j72971494359151_1_alg».proof.Proof.KernelIdealTotal
import Idealize.ShloMosaic.Adequacy
import Idealize.ShloMosaic.Init

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

-- Both runs end at one function of the arguments: three rounds of gather, scale, scatter-add, averaged with the table.
theorem algebraic : Cert.algebraic_KernelIdeal_ReferenceIdeal := by
  intro m ρ m' ρ' hpre hagree
  have hs : ∀ (c : Dev Cert.KernelIdeal.nD) (e : Fin 800000),
      (Cert.ReferenceIdeal.RefValue.refSrc (Cert.KernelIdeal.Hand.a0 m c) e).toNat < 50000 :=
    fun c e => Cert.Proof.PreRange.range_KernelIdeal m hpre c 0 e
  have hd : ∀ (c : Dev Cert.KernelIdeal.nD) (e : Fin 800000),
      (Cert.ReferenceIdeal.RefValue.refDst (Cert.KernelIdeal.Hand.a0 m c) e).toNat < 50000 :=
    fun c e => Cert.Proof.PreRange.range_KernelIdeal m hpre c 1 e
  refine ⟨fun c => Cert.ReferenceIdeal.Read.val_main_v73 (F := Ideal) (Cert.KernelIdeal.Hand.a0 m c) (Cert.KernelIdeal.Hand.a1 m c), ?_, ?_⟩
  · refine (θ_run Cert.KernelIdeal.defs _ _).mono (fun r h c => ⟨?_, ?_, ?_⟩) (Cert.KernelIdeal.Hand.run_all (F := Ideal) m ρ)
    · exact (h c _ (Cert.KernelIdeal.Hand.mem_uc Cert.KernelIdeal.main_v42 (by decide))).trans (Cert.KernelIdeal.Hand.total_eq m c (hs c) (hd c))
    · exact (h c _ (Cert.KernelIdeal.Hand.mem_uc Cert.KernelIdeal.main_arg0 (by decide))).trans (Cert.KernelIdeal.Hand.W10_main_arg0 m c)
    · exact (h c _ (Cert.KernelIdeal.Hand.mem_uc Cert.KernelIdeal.main_arg1 (by decide))).trans (Cert.KernelIdeal.Hand.W10_main_arg1 m c)
  · refine (θ_run Cert.ReferenceIdeal.defs _ _).mono (fun r h c => ⟨(h c).1.trans ?_, (h c).2.1, (h c).2.2⟩)
      (Cert.ReferenceIdeal.RefValue.run_result m' ρ')
    rw [(hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
